-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x2048x1024 .f32) (main_arg1 : FVec F S1024x64 .f32) (main_arg2 : FVec F S1024x64 .f32) (main_arg3 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x2048x1024 : Shape := ⟨3, ![8, 2048, 1024]⟩
abbrev S1024x64 : Shape := ⟨2, ![1024, 64]⟩
abbrev S1024x192 : Shape := ⟨2, ![1024, 192]⟩
abbrev S8x2048x64 : Shape := ⟨3, ![8, 2048, 64]⟩
abbrev S1x2048x1024 : Shape := ⟨3, ![1, 2048, 1024]⟩
abbrev S1x256x64 : Shape := ⟨3, ![1, 256, 64]⟩
abbrev S2048x64 : Shape := ⟨2, ![2048, 64]⟩
abbrev S256x1 : Shape := ⟨2, ![256, 1]⟩
abbrev S256x64 : Shape := ⟨2, ![256, 64]⟩
abbrev S2048x1024 : Shape := ⟨2, ![2048, 1024]⟩
abbrev S2048x192 : Shape := ⟨2, ![2048, 192]⟩
abbrev S256x256 : Shape := ⟨2, ![256, 256]⟩
abbrev S256 : Shape := ⟨1, ![256]⟩

abbrev nBuf : Space → Nat
  | .hbm => 6
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x192, .f32⟩
  | .hbm, ⟨5, _⟩ => ⟨S8x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x192, .f32⟩
  | .local _ .vmem, ⟨3, _⟩ => ⟨S1x256x64, .f32⟩
  | .local _ .vmem, ⟨4, _⟩ => ⟨S1x256x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S256x1, .f32⟩
  | .local _ .vmem, ⟨9, _⟩ => ⟨S256x1, .f32⟩
  | .local _ .vmem, ⟨10, _⟩ => ⟨S256x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v15 : BitVec 32 := Scalar.muli arg1 c256_i32
  v15
def k0_off1 (i : grid0.Coords) : Fin 2 → Nat :=
  let arg1 : BitVec 32 := BitVec.ofNat 32 (i 1).val
  let c256_i32 : BitVec 32 := 256#32
  let v15 : BitVec 32 := Scalar.muli arg1 c256_i32
  let v16 : BitVec 32 := v15
  let v17 : Index := Scalar.indexCast v16
  let c0_8 : Index := 0#32
  ![v17.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  concatenates_S1024x64_S1024x64_S1024x64_S1024x192_d1 : Shape.Concatenates [S1024x64, S1024x64, S1024x64] S1024x192 1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S2048x192_o0_0_S2048x64 : S2048x192.Slices ![0, 0] S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  slices_S2048x192_o0_64_S2048x64 : S2048x192.Slices ![0, 64] S2048x64
  slices_S2048x192_o0_128_S2048x64 : S2048x192.Slices ![0, 128] S2048x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2048x64_S256x64_0_0 : ∀ a, (![0, 0] : Fin 2 → Nat) a + S256x64.size a ≤ S2048x64.size a
  iota_S256x256_d0_w32 : S256x256.Iotas .tc 32 [0]
  iota_S256x256_d1_w32 : S256x256.Iotas .tc 32 [1]
  reduces_S256x256_S256 : S256x256.Reduces [1] S256
  shapeCasts_S256_S256x1 : S256.ShapeCasts S256x1
  broadcasts_S256x1_S256x256 : S256x1.Broadcasts S256x256
  broadcasts_S256x1_S256x64 : S256x1.Broadcasts S256x64
  inb_S2048x64_S256x64_256_0 : ∀ a, (![256, 0] : Fin 2 → Nat) a + S256x64.size a ≤ S2048x64.size a
  inb_S2048x64_S256x64_512_0 : ∀ a, (![512, 0] : Fin 2 → Nat) a + S256x64.size a ≤ S2048x64.size a
  inb_S2048x64_S256x64_768_0 : ∀ a, (![768, 0] : Fin 2 → Nat) a + S256x64.size a ≤ S2048x64.size a
  inb_S2048x64_S256x64_1024_0 : ∀ a, (![1024, 0] : Fin 2 → Nat) a + S256x64.size a ≤ S2048x64.size a
  inb_S2048x64_S256x64_1280_0 : ∀ a, (![1280, 0] : Fin 2 → Nat) a + S256x64.size a ≤ S2048x64.size a
  inb_S2048x64_S256x64_1536_0 : ∀ a, (![1536, 0] : Fin 2 → Nat) a + S256x64.size a ≤ S2048x64.size a
  inb_S2048x64_S256x64_1792_0 : ∀ a, (![1792, 0] : Fin 2 → Nat) a + S256x64.size a ≤ S2048x64.size a
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S2048x1024_S1024x192_S2048x192_1_0_0_1_n_n_wf : DotDims.WF S2048x1024 S1024x192 S2048x192 [1] [0] [0] [1] [] []
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x64.size a ≤ S2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x64.size a ≤ S8x2048x64.size a
  hwx0_2 : ∀ i : grid0.Coords, EltTy.bits .f32 = 32 ∨ (Rect.block (s := S8x2048x64) S1x256x64.size (cc0_transform_2 i) (hinb0_2 i)).WholeWords (EltTy.packing .f32)

variable [Facts₀]

def dot_S2048x1024_S1024x192_S2048x192_1_0_0_1_n_n : DotDims S2048x1024 S1024x192 S2048x192 where
  lhsContracting := [1]
  rhsContracting := [0]
  lhsNonContracting := [0]
  rhsNonContracting := [1]
  lhsBatch := []
  rhsBatch := []
  wf := dot_S2048x1024_S1024x192_S2048x192_1_0_0_1_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KB.Shared.lean ====
/-
  The kernel's grid has 8 × 8 points: batch b, query tile qi, point t = 8·b + qi. What every module about the kernel's
  run is stated over: the arrays when the kernel region starts (the three weight matrices set side by side), each
  operand's block at a point, and the body's nine branch conditions over the grid: the projection runs iff qi = 0,
  key tile k iff k ≤ qi.
-/
import proofs.«431441_j5385888989914_3_alg».proof.Proof.Gen.Kernel.Launch
import proofs.«431441_j5385888989914_3_alg».proof.Proof.Gen.Kernel.Skeleton
import proofs.«431441_j5385888989914_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays when the kernel region starts: as launched, with the three weight matrices concatenated along columns. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes only its own result. -/
theorem V_of_ne (c : Dev nD) {b : Ref sig .tc} (h : b ≠ main_v0) : V m c b = m ((c : Thread nD τ).loc b) :=
  StableHlo.after_of_forall_not_mem (b := Proc.devRef .tc b) _ _ (List.forall_iff_forall_mem.mp (by
    simp only [hostOps0, List.Forall, StableHlo.nary_writes, Finset.mem_singleton]
    exact StableHlo.devRef_ne_of_ne h))

/-- Operand `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every point the body finds its batch's slab in the first operand and the whole weight matrix in the second. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- A run of the whole program ends with the result array as the launch theorem names it and the four arguments as launched: the kernel region writes none of them, the concatenation only its own result. -/
theorem run_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v1) = (dats 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 2,
      ((h c).1 0).trans (((dats 0 c).arrAt_in 0 rfl _).trans ((hA c 0).trans (V_of_ne m c (by decide)))),
      ((h c).2 main_arg1 (Pipeline.mem_restRefs_of main_arg1 (by decide) (by decide))).trans (V_of_ne m c (by decide)),
      ((h c).2 main_arg2 (Pipeline.mem_restRefs_of main_arg2 (by decide) (by decide))).trans (V_of_ne m c (by decide)),
      ((h c).2 main_arg3 (Pipeline.mem_restRefs_of main_arg3 (by decide) (by decide))).trans (V_of_ne m c (by decide))⟩) h

/-- `qi = 0` as the body spells it. -/
abbrev cond0_0 (i : grid0.Coords) : Prop := (Scalar.cmpi .ne (Scalar.extui (Scalar.cmpi .eq (BitVec.ofNat 32 (i 1).val) 0#32)) 0#32) = 1#1

/-- `k ≤ qi` as the body spells it: a signed word compare, widened and tested against zero. -/
abbrev condK (k : BitVec 32) (i : grid0.Coords) : Prop := (Scalar.cmpi .ne (Scalar.extui (Scalar.cmpi .sge (BitVec.ofNat 32 (i 1).val) k)) 0#32) = 1#1

/-- Grid coordinates `i` have query tile `q`. -/
abbrev Case (q : ℕ) (i : grid0.Coords) : Prop :=
  (cond0_0 i ↔ q = 0) ∧ (condK 0#32 i ↔ 0 ≤ q) ∧ (condK 1#32 i ↔ 1 ≤ q) ∧ (condK 2#32 i ↔ 2 ≤ q) ∧ (condK 3#32 i ↔ 3 ≤ q)
    ∧ (condK 4#32 i ↔ 4 ≤ q) ∧ (condK 5#32 i ↔ 5 ≤ q) ∧ (condK 6#32 i ↔ 6 ≤ q) ∧ (condK 7#32 i ↔ 7 ≤ q)

/-- Point `t` has query tile `t mod 8`. -/
theorem case_at : ∀ t : Fin cfg0.N, Case (t.val % 8) (grid0.coords t) :=
  (by decide +kernel : ∀ t : Fin grid0.N, Case (t.val % 8) (grid0.coords t))

theorem liveAt0 : ∀ (w : Fin cfg0.W) (t : Fin cfg0.N), cfg0.idle w (grid0.coords t) = false := by decide +kernel

abbrev VO0_2 : View sig .tc .vmem S1x256x64 .f32 := (Memref.whole cc0_stg2_0 : Memref sig .tc .vmem S1x256x64 .f32).view
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x64 .f32 := win0_2.stage (cfg0.slots t 2)
abbrev hs0_2 (t : Fin cfg0.N) : (ms0_2 t).IsWhole := hstage0_2 ((cfg0.slots t 2).cast nbuf0_2)

/-- The six scratch operands: projected queries, keys and values, kept across a batch; running maximum, running sum and accumulator, reset at every point. -/
abbrev scM0_0 : Memref sig .tc .vmem S2048x64 .f32 := Memref.whole cc0_scratch0
abbrev scM0_1 : Memref sig .tc .vmem S2048x64 .f32 := Memref.whole cc0_scratch1
abbrev scM0_2 : Memref sig .tc .vmem S2048x64 .f32 := Memref.whole cc0_scratch2
abbrev scM0_3 : Memref sig .tc .vmem S256x1 .f32 := Memref.whole cc0_scratch3
abbrev scM0_4 : Memref sig .tc .vmem S256x1 .f32 := Memref.whole cc0_scratch4
abbrev scM0_5 : Memref sig .tc .vmem S256x64 .f32 := Memref.whole cc0_scratch5
abbrev VS0_0 : View sig .tc .vmem S2048x64 .f32 := scM0_0.view
abbrev VS0_1 : View sig .tc .vmem S2048x64 .f32 := scM0_1.view
abbrev VS0_2 : View sig .tc .vmem S2048x64 .f32 := scM0_2.view

/-- What the region starts with besides its operands' arrays: every scratch at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Fr

end
-- ==== Proof.KB.Run.lean ====
/-
  The body run symbolically, once for each query tile a point can have. With qi = 0 the projection branch is taken (the
  slab times the concatenated weights, its three column bands stored whole into the query, key and value scratches)
  and key tile 0 is visited; with qi ≥ 1 the scratches are read and left as found and key tiles 0..qi are visited. What
  a written operand ends with is found by the run, as a list of stores.
-/
import proofs.«431441_j5385888989914_3_alg».proof.Proof.KB.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1x2048x1024 .f32) (harg2 : arg2.IsWhole)
  (arg3 : Memref sig .tc .vmem S1024x192 .f32) (harg3 : arg3.IsWhole) (arg4 : Memref sig .tc .vmem S1x256x64 .f32) (harg4 : arg4.IsWhole)
  (arg5 : Memref sig .tc .vmem S2048x64 .f32) (harg5 : arg5.IsWhole) (arg6 : Memref sig .tc .vmem S2048x64 .f32) (harg6 : arg6.IsWhole)
  (arg7 : Memref sig .tc .vmem S2048x64 .f32) (harg7 : arg7.IsWhole) (arg8 : Memref sig .tc .vmem S256x1 .f32) (harg8 : arg8.IsWhole)
  (arg9 : Memref sig .tc .vmem S256x1 .f32) (harg9 : arg9.IsWhole) (arg10 : Memref sig .tc .vmem S256x64 .f32) (harg10 : arg10.IsWhole)

/-- A run of the body that leaves the three projection scratches as found; `L2` is what it stores to the output block. -/
abbrev KeepRun (x0 : Vec F S1x2048x1024 .f32) (x1 : Vec F S1024x192 .f32) (xs0 xs1 xs2 : Vec F S2048x64 .f32) : Type :=
  { L2 : List (View.Piece (Elt F) S1x256x64 .f32) //
    ∀ (E : Set ℕ) (K : PUnit → sProp 𝕄),
      iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ (∃ d, owns (c : Thread nD τ) arg8 fullShare d) ∗ (∃ d, owns (c : Thread nD τ) arg9 fullShare d) ∗ (∃ d, owns (c : Thread nD τ) arg10 fullShare d)
          ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs0 ∗ owns (c : Thread nD τ) arg6 fullShare xs1 ∗ owns (c : Thread nD τ) arg7 fullShare xs2 ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f)) -∗ K ⟨⟩))
        ⊢ wp frame (wpE (defs₀ (F := F)) Variants.none c none) E (cc0__fused_kernel i arg2 harg2 arg3 harg3 arg4 harg4 arg5 harg5 arg6 harg6 arg7 harg7 arg8 harg8 arg9 harg9 arg10 harg10) K }

set_option maxHeartbeats 4000000 in

/-- qi = 0: the scratches start at anything and end with the stores `LS0`, `LS1`, `LS2`. -/
noncomputable def kernelRun0_q0 (hq : Case 0 i) (x0 : Vec F S1x2048x1024 .f32) (x1 : Vec F S1024x192 .f32) :
    Σ' (L2 : List (View.Piece (Elt F) S1x256x64 .f32)) (LS0 : List (View.Piece (Elt F) S2048x64 .f32)) (LS1 : List (View.Piece (Elt F) S2048x64 .f32)), { LS2 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, ?_, fun E K => ?run⟩
  case run =>
    first | have hc0 := hq.1.mpr (by omega) | have hc0 := mt hq.1.mp (by omega)
    have hc1 := hq.2.1.mpr (by omega)
    first | have hc2 := hq.2.2.1.mpr (by omega) | have hc2 := mt hq.2.2.1.mp (by omega)
    first | have hc3 := hq.2.2.2.1.mpr (by omega) | have hc3 := mt hq.2.2.2.1.mp (by omega)
    first | have hc4 := hq.2.2.2.2.1.mpr (by omega) | have hc4 := mt hq.2.2.2.2.1.mp (by omega)
    first | have hc5 := hq.2.2.2.2.2.1.mpr (by omega) | have hc5 := mt hq.2.2.2.2.2.1.mp (by omega)
    first | have hc6 := hq.2.2.2.2.2.2.1.mpr (by omega) | have hc6 := mt hq.2.2.2.2.2.2.1.mp (by omega)
    first | have hc7 := hq.2.2.2.2.2.2.2.1.mpr (by omega) | have hc7 := mt hq.2.2.2.2.2.2.2.1.mp (by omega)
    first | have hc8 := hq.2.2.2.2.2.2.2.2.mpr (by omega) | have hc8 := mt hq.2.2.2.2.2.2.2.2.mp (by omega)
    simp only [cc0__fused_kernel_eq_skeleton]; unfold cc0__fused_kernel_skel
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1
    sl_exec (disch := first | exact hc0 | exact hc1 | exact hc2 | exact hc3 | exact hc4 | exact hc5 | exact hc6 | exact hc7 | exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

set_option maxHeartbeats 8000000 in

/-- qi = q, 1 ≤ q ≤ 7: one run per value of q, the same steps each time, the branches decided by `Case q i`. -/
noncomputable def kernelRunKeep (q : ℕ) (hq : Case q i) (hq1 : q ≠ 0) (hq7 : q < 8) (x0 : Vec F S1x2048x1024 .f32) (x1 : Vec F S1024x192 .f32)
    (xs0 xs1 xs2 : Vec F S2048x64 .f32) : KeepRun c i arg2 harg2 arg3 harg3 arg4 harg4 arg5 harg5 arg6 harg6 arg7 harg7 arg8 harg8 arg9 harg9 arg10 harg10 x0 x1 xs0 xs1 xs2 := by
  rcases q with _|_|_|_|_|_|_|_|q <;> first | exact absurd rfl hq1 | exact absurd hq7 (by omega) | skip
  all_goals
    refine ⟨?_, fun E K => ?run⟩
    case run =>
      first | have hc0 := hq.1.mpr (by omega) | have hc0 := mt hq.1.mp (by omega)
      have hc1 := hq.2.1.mpr (by omega)
      first | have hc2 := hq.2.2.1.mpr (by omega) | have hc2 := mt hq.2.2.1.mp (by omega)
      first | have hc3 := hq.2.2.2.1.mpr (by omega) | have hc3 := mt hq.2.2.2.1.mp (by omega)
      first | have hc4 := hq.2.2.2.2.1.mpr (by omega) | have hc4 := mt hq.2.2.2.2.1.mp (by omega)
      first | have hc5 := hq.2.2.2.2.2.1.mpr (by omega) | have hc5 := mt hq.2.2.2.2.2.1.mp (by omega)
      first | have hc6 := hq.2.2.2.2.2.2.1.mpr (by omega) | have hc6 := mt hq.2.2.2.2.2.2.1.mp (by omega)
      first | have hc7 := hq.2.2.2.2.2.2.2.1.mpr (by omega) | have hc7 := mt hq.2.2.2.2.2.2.2.1.mp (by omega)
      first | have hc8 := hq.2.2.2.2.2.2.2.2.mpr (by omega) | have hc8 := mt hq.2.2.2.2.2.2.2.2.mp (by omega)
      simp only [cc0__fused_kernel_eq_skeleton]; unfold cc0__fused_kernel_skel
      unfold owns
      iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, Hk⟩
      obtain rfl := harg2.eq_unread hf0; obtain rfl := harg3.eq_unread hf1
      obtain rfl := harg5.eq_unread hfs0; obtain rfl := harg6.eq_unread hfs1; obtain rfl := harg7.eq_unread hfs2
      sl_exec (disch := first | exact hc0 | exact hc1 | exact hc2 | exact hc3 | exact hc4 | exact hc5 | exact hc6 | exact hc7 | exact hc8)
      sl_step
      iapply Hk
      isplitl [H0]
      · iexists _; isplitr; · ipureintro; exact harg2.read_unread _
        iexact H0
      isplitl [H1]
      · iexists _; isplitr; · ipureintro; exact harg3.read_unread _
        iexact H1
      isplitl [H2]; · iexists _; iexact H2
      isplitl [HS0]
      · iexists _; isplitr; · ipureintro; exact harg5.read_unread _
        iexact HS0
      isplitl [HS1]
      · iexists _; isplitr; · ipureintro; exact harg6.read_unread _
        iexact HS1
      isplitl [HS2]
      · iexists _; isplitr; · ipureintro; exact harg7.read_unread _
        iexact HS2
      isplitl [HS3]; · iexists _; iexact HS3
      isplitl [HS4]; · iexists _; iexact HS4
      iexists _; iexact HS5

end Cert.Kernel.Fr

end
-- ==== Proof.KB.Frame.lean ====
/-
  The runs assembled over the grid. The stores each run found become contents; the contents after each point are
  defined by recursion on the point (with qi = 0 the three projection scratches restart from the point's own slab,
  otherwise they are kept); the invariant between points carries the scratches at those contents; the library's launch
  theorem turns the per-point statement into a run of the whole program.
-/
import proofs.«431441_j5385888989914_3_alg».proof.Proof.KB.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Covers
variable (c : Dev nD) (i : grid0.Coords) (arg2 : Memref sig .tc .vmem S1x2048x1024 .f32) (harg2 : arg2.IsWhole)
  (arg3 : Memref sig .tc .vmem S1024x192 .f32) (harg3 : arg3.IsWhole) (arg4 : Memref sig .tc .vmem S1x256x64 .f32) (harg4 : arg4.IsWhole)
  (arg5 : Memref sig .tc .vmem S2048x64 .f32) (harg5 : arg5.IsWhole) (arg6 : Memref sig .tc .vmem S2048x64 .f32) (harg6 : arg6.IsWhole)
  (arg7 : Memref sig .tc .vmem S2048x64 .f32) (harg7 : arg7.IsWhole) (arg8 : Memref sig .tc .vmem S256x1 .f32) (harg8 : arg8.IsWhole)
  (arg9 : Memref sig .tc .vmem S256x1 .f32) (harg9 : arg9.IsWhole) (arg10 : Memref sig .tc .vmem S256x64 .f32) (harg10 : arg10.IsWhole)
  (x0 : Vec F S1x2048x1024 .f32) (x1 : Vec F S1024x192 .f32) (xs0 xs1 xs2 : Vec F S2048x64 .f32)

/-- Each run's stores into an operand cover it. -/
theorem cover0_q0_2 (hq) (y : S1x256x64.Idx) : ∃ pc ∈ (kernelRun0_q0 c i arg2 harg2 arg3 harg3 arg4 harg4 arg5 harg5 arg6 harg6 arg7 harg7 arg8 harg8 arg9 harg9 arg10 harg10 hq x0 x1).1, y ∈ pc.1.set :=
  View.cover_of_tiledL _ S1x256x64.size (by sl_kernel_rfl) y
theorem scover0_q0_0 (hq) (y : S2048x64.Idx) : ∃ pc ∈ (kernelRun0_q0 c i arg2 harg2 arg3 harg3 arg4 harg4 arg5 harg5 arg6 harg6 arg7 harg7 arg8 harg8 arg9 harg9 arg10 harg10 hq x0 x1).2.1, y ∈ pc.1.set :=
  View.cover_of_tiledL _ S2048x64.size (by sl_kernel_rfl) y
theorem scover0_q0_1 (hq) (y : S2048x64.Idx) : ∃ pc ∈ (kernelRun0_q0 c i arg2 harg2 arg3 harg3 arg4 harg4 arg5 harg5 arg6 harg6 arg7 harg7 arg8 harg8 arg9 harg9 arg10 harg10 hq x0 x1).2.2.1, y ∈ pc.1.set :=
  View.cover_of_tiledL _ S2048x64.size (by sl_kernel_rfl) y
theorem scover0_q0_2 (hq) (y : S2048x64.Idx) : ∃ pc ∈ (kernelRun0_q0 c i arg2 harg2 arg3 harg3 arg4 harg4 arg5 harg5 arg6 harg6 arg7 harg7 arg8 harg8 arg9 harg9 arg10 harg10 hq x0 x1).2.2.2.1, y ∈ pc.1.set :=
  View.cover_of_tiledL _ S2048x64.size (by sl_kernel_rfl) y
theorem cover_keep (q hq hq1 hq7) (y : S1x256x64.Idx) :
    ∃ pc ∈ (kernelRunKeep c i arg2 harg2 arg3 harg3 arg4 harg4 arg5 harg5 arg6 harg6 arg7 harg7 arg8 harg8 arg9 harg9 arg10 harg10 q hq hq1 hq7 x0 x1 xs0 xs1 xs2).1, y ∈ pc.1.set := by
  rcases q with _|_|_|_|_|_|_|_|q <;>
    first | exact absurd rfl hq1 | exact absurd hq7 (by omega) | exact View.cover_of_tiledL _ S1x256x64.size (by sl_kernel_rfl) y

end Covers

/-- The three projection scratches' contents. -/
abbrev Scr (F : FTy → Type) : Type := Vec F S2048x64 .f32 × Vec F S2048x64 .f32 × Vec F S2048x64 .f32

/-- The output block and the three scratches after a point. -/
abbrev OutT (F : FTy → Type) : Type := Vec F S1x256x64 .f32 × Scr F

/-- The body's run at a point with qi = 0, on the point's own blocks. -/
abbrev firstAt (c : Dev nD) (t : Fin cfg0.N) (h : t.val % 8 = 0) :=
  kernelRun0_q0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) (h ▸ case_at t) (iblk m c 0 t) (iblk m c 1 t)

/-- The body's run at any other point, from the scratches `s` the point before left. -/
abbrev keepAt (c : Dev nD) (t : Fin cfg0.N) (h : t.val % 8 ≠ 0) (s : Scr F) :=
  kernelRunKeep c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) (t.val % 8) (case_at t) h (Nat.mod_lt _ (by decide)) (iblk m c 0 t) (iblk m c 1 t) s.1 s.2.1 s.2.2

/-- qi = 0: every written operand's stores, read back. -/
def caseQ0 (c : Dev nD) (t : Fin cfg0.N) (h : t.val % 8 = 0) : OutT F :=
  (VO0_2.read (Elt F) (VO0_2.writes (Elt F) VO0_2.junk (firstAt m c t h).1),
   VS0_0.read (Elt F) (VS0_0.writes (Elt F) VS0_0.junk (firstAt m c t h).2.1),
   VS0_1.read (Elt F) (VS0_1.writes (Elt F) VS0_1.junk (firstAt m c t h).2.2.1),
   VS0_2.read (Elt F) (VS0_2.writes (Elt F) VS0_2.junk (firstAt m c t h).2.2.2.1))

/-- qi ≠ 0: the output block's stores read back; the scratches `s` kept. -/
def caseKeep (c : Dev nD) (t : Fin cfg0.N) (h : t.val % 8 ≠ 0) (s : Scr F) : OutT F :=
  (VO0_2.read (Elt F) (VO0_2.writes (Elt F) VO0_2.junk (keepAt m c t h s).1), s)

/-- The output block and the scratches after the body at position `n`. -/
def outsAt0 (c : Dev nD) : (n : ℕ) → n < cfg0.N → OutT F
  | 0, hn => caseQ0 m c ⟨0, hn⟩ (Nat.zero_mod _)
  | n + 1, hn =>
    if h : (n + 1) % 8 = 0 then caseQ0 m c ⟨n + 1, hn⟩ h
    else caseKeep m c ⟨n + 1, hn⟩ h (outsAt0 c n (Nat.lt_of_succ_lt hn)).2

theorem outsAt0_q0 (c : Dev nD) (t : Fin cfg0.N) (h : t.val % 8 = 0) : outsAt0 m c t.val t.isLt = caseQ0 m c t h := by
  obtain ⟨n, hn⟩ := t
  cases n with
  | zero => rfl
  | succ n => exact dif_pos h

theorem outsAt0_keep (c : Dev nD) (t : Fin cfg0.N) (h : t.val % 8 ≠ 0) :
    outsAt0 m c t.val t.isLt = caseKeep m c t h (outsAt0 m c (t.val - 1) (Nat.lt_of_le_of_lt (Nat.sub_le _ _) t.isLt)).2 := by
  obtain ⟨n, hn⟩ := t
  cases n with
  | zero => exact absurd (Nat.zero_mod _) h
  | succ n => exact dif_neg h

/-- Between points: before the first, every scratch at anything; later the projection scratches at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-- What the launch theorem asks for: the arrays at entry, each operand's contents after the body at a point, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem hin (c : Dev nD) : Pipeline.ΦA spec0 c ⊢ (dats m 0 c).Φ 0 := by
  rw [show (dats m 0 c).Φ 0 = Pipeline.ΦA spec0 c from rfl]
  try exact Idealize.SL.BI.Entails.refl _

/-- At any position the invariant can forget the scratches' contents. -/
theorem Phi_le (c : Dev nD) (t : Fin (cfg0.N + 1)) : (dats m 0 c).Φ t ⊢ Pipeline.ΦA spec0 c := by
  by_cases ht : t.val = 0
  · rw [show (dats m 0 c).Φ t = PhiS m c t.val (Nat.le_of_lt_succ t.isLt) from rfl]
    obtain ⟨n, hn⟩ := t
    obtain rfl : n = 0 := ht
    exact Idealize.SL.BI.Entails.refl _
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexact HS3
    isplitl [HS4]; · iexact HS4
    iexact HS5
  iexact Hg

/-- What the body is given at point `t`, and what it gives back. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in

/-- The body at any point. With qi = 0 the scratches are taken at anything, since the projection overwrites them; otherwise at what the point before left. Either run's stores, read back, are this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0 0 t], after0_0]
  rw [show (dats m 0 c).leavesExact 1 t = owns (c : Thread nD τ) (ms0_1 t) fullShare ((dats m 0 c).after 1 t) from by
    unfold Dat.leavesExact; rw [liveAt0 1 t], after0_1]
  rw [show (dats m 0 c).leavesExact 2 t = owns (c : Thread nD τ) (ms0_2 t) fullShare ((dats m 0 c).after 2 t) from by
    unfold Dat.leavesExact; rw [liveAt0 2 t], after0_2]
  by_cases h0 : t.val % 8 = 0
  · rw [outsAt0_q0 m c t h0]
    unfold caseQ0; (try dsimp only)
    refine (sep_mono_left (Phi_le m c t.castSucc)).trans ?_
    rw [PhiA0_eq]
    iintro ⟨⟨⟨HS0, HS1, HS2, HS3, HS4, HS5⟩, Hg⟩, Ho, ⟨%d0, H0⟩, ⟨%d1, H1⟩, ⟨%d2, H2⟩⟩
    iapply ((firstAt m c t h0).2.2.2.2 _ _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, ⟨%e2, H2⟩, ⟨%es0, HS0⟩, ⟨%es1, HS1⟩, ⟨%es2, HS2⟩, ⟨%e3, HS3⟩, ⟨%e4, HS4⟩, ⟨%e5, HS5⟩⟩
    isplitl [HS0 HS1 HS2 HS3 HS4 HS5 Hg]
    · isplitl [HS0 HS1 HS2 HS3 HS4 HS5]
      · isplitl [HS0]
        · unfold owns; iexists _; isplitr
          swap; · iexact HS0
          ipureintro; exact View.read_writes_of_cover _ _ _ _ _ (scover0_q0_0 c (grid0.coords t) (ms0_0 t) _ (ms0_1 t) _ (ms0_2 t) _ scM0_0 _ scM0_1 _ scM0_2 _ scM0_3 _ scM0_4 _ scM0_5 _ _ _ _)
        isplitl [HS1]
        · unfold owns; iexists _; isplitr
          swap; · iexact HS1
          ipureintro; exact View.read_writes_of_cover _ _ _ _ _ (scover0_q0_1 c (grid0.coords t) (ms0_0 t) _ (ms0_1 t) _ (ms0_2 t) _ scM0_0 _ scM0_1 _ scM0_2 _ scM0_3 _ scM0_4 _ scM0_5 _ _ _ _)
        isplitl [HS2]
        · unfold owns; iexists _; isplitr
          swap; · iexact HS2
          ipureintro; exact View.read_writes_of_cover _ _ _ _ _ (scover0_q0_2 c (grid0.coords t) (ms0_0 t) _ (ms0_1 t) _ (ms0_2 t) _ scM0_0 _ scM0_1 _ scM0_2 _ scM0_3 _ scM0_4 _ scM0_5 _ _ _ _)
        isplitl [HS3]
        · iexists (scM0_3.view.read (Elt F) e3); unfold owns; iexists e3; isplitr
          · ipureintro; rfl
          iexact HS3
        isplitl [HS4]
        · iexists (scM0_4.view.read (Elt F) e4); unfold owns; iexists e4; isplitr
          · ipureintro; rfl
          iexact HS4
        iexists (scM0_5.view.read (Elt F) e5); unfold owns; iexists e5; isplitr
        · ipureintro; rfl
        iexact HS5
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_q0_2 c (grid0.coords t) (ms0_0 t) _ (ms0_1 t) _ (ms0_2 t) _ scM0_0 _ scM0_1 _ scM0_2 _ scM0_3 _ scM0_4 _ scM0_5 _ _ _ _)
  · rw [outsAt0_keep m c t h0]
    unfold caseKeep; (try dsimp only)
    rw [PhiS_castSucc m c t, PhiS_pos m c _ _ (fun hz => h0 (by rw [hz]))]
    iintro ⟨⟨⟨HS0, HS1, HS2, HS3, HS4, HS5⟩, Hg⟩, Ho, ⟨%d0, H0⟩, ⟨%d1, H1⟩, ⟨%d2, H2⟩⟩
    iapply ((keepAt m c t h0 _).2 _ _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, ⟨%e2, H2⟩, HS0, HS1, HS2, ⟨%e3, HS3⟩, ⟨%e4, HS4⟩, ⟨%e5, HS5⟩⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]
        · iexists (scM0_3.view.read (Elt F) e3); unfold owns; iexists e3; isplitr
          · ipureintro; rfl
          iexact HS3
        isplitl [HS4]
        · iexists (scM0_4.view.read (Elt F) e4); unfold owns; iexists e4; isplitr
          · ipureintro; rfl
          iexact HS4
        iexists (scM0_5.view.read (Elt F) e5); unfold owns; iexists e5; isplitr
        · ipureintro; rfl
        iexact HS5
      iexact Hg
    isplitl [Ho]; · iexact Ho
    isplitl [H0]; · iexact H0
    isplitl [H1]; · iexact H1
    unfold owns; iexists _; isplitr
    swap; · iexact H2
    ipureintro; exact View.read_writes_of_cover _ _ _ _ _ (cover_keep c (grid0.coords t) (ms0_0 t) _ (ms0_1 t) _ (ms0_2 t) _ scM0_0 _ scM0_1 _ scM0_2 _ scM0_3 _ scM0_4 _ scM0_5 _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in

/-- Every weakly fair execution of the program terminates, each operand's array at what the launch theorem computes from `dats`. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := fun c => Phi_le m c _)

/-- The four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_of m ρ (dats m) (A_eq m) (run_main m ρ))

end Cert.Kernel.Fr

end
-- ==== Proof.KI.Shared.lean ====
/-
  The kernel's grid has 8 × 8 points: batch b, query tile qi, point t = 8·b + qi. What every module about the kernel's
  run is stated over: the arrays when the kernel region starts (the three weight matrices set side by side), each
  operand's block at a point, and the body's nine branch conditions over the grid: the projection runs iff qi = 0,
  key tile k iff k ≤ qi.
-/
import proofs.«431441_j5385888989914_3_alg».proof.Proof.Gen.KernelIdeal.Launch
import proofs.«431441_j5385888989914_3_alg».proof.Proof.Gen.KernelIdeal.Skeleton
import proofs.«431441_j5385888989914_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arrays when the kernel region starts: as launched, with the three weight matrices concatenated along columns. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes only its own result. -/
theorem V_of_ne (c : Dev nD) {b : Ref sig .tc} (h : b ≠ main_v0) : V m c b = m ((c : Thread nD τ).loc b) :=
  StableHlo.after_of_forall_not_mem (b := Proc.devRef .tc b) _ _ (List.forall_iff_forall_mem.mp (by
    simp only [hostOps0, List.Forall, StableHlo.nary_writes, Finset.mem_singleton]
    exact StableHlo.devRef_ne_of_ne h))

/-- Operand `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every point the body finds its batch's slab in the first operand and the whole weight matrix in the second. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- A run of the whole program ends with the result array as the launch theorem names it and the four arguments as launched: the kernel region writes none of them, the concatenation only its own result. -/
theorem run_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v1) = (dats 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 2,
      ((h c).1 0).trans (((dats 0 c).arrAt_in 0 rfl _).trans ((hA c 0).trans (V_of_ne m c (by decide)))),
      ((h c).2 main_arg1 (Pipeline.mem_restRefs_of main_arg1 (by decide) (by decide))).trans (V_of_ne m c (by decide)),
      ((h c).2 main_arg2 (Pipeline.mem_restRefs_of main_arg2 (by decide) (by decide))).trans (V_of_ne m c (by decide)),
      ((h c).2 main_arg3 (Pipeline.mem_restRefs_of main_arg3 (by decide) (by decide))).trans (V_of_ne m c (by decide))⟩) h

/-- `qi = 0` as the body spells it. -/
abbrev cond0_0 (i : grid0.Coords) : Prop := (Scalar.cmpi .ne (Scalar.extui (Scalar.cmpi .eq (BitVec.ofNat 32 (i 1).val) 0#32)) 0#32) = 1#1

/-- `k ≤ qi` as the body spells it: a signed word compare, widened and tested against zero. -/
abbrev condK (k : BitVec 32) (i : grid0.Coords) : Prop := (Scalar.cmpi .ne (Scalar.extui (Scalar.cmpi .sge (BitVec.ofNat 32 (i 1).val) k)) 0#32) = 1#1

/-- Grid coordinates `i` have query tile `q`. -/
abbrev Case (q : ℕ) (i : grid0.Coords) : Prop :=
  (cond0_0 i ↔ q = 0) ∧ (condK 0#32 i ↔ 0 ≤ q) ∧ (condK 1#32 i ↔ 1 ≤ q) ∧ (condK 2#32 i ↔ 2 ≤ q) ∧ (condK 3#32 i ↔ 3 ≤ q)
    ∧ (condK 4#32 i ↔ 4 ≤ q) ∧ (condK 5#32 i ↔ 5 ≤ q) ∧ (condK 6#32 i ↔ 6 ≤ q) ∧ (condK 7#32 i ↔ 7 ≤ q)

/-- Point `t` has query tile `t mod 8`. -/
theorem case_at : ∀ t : Fin cfg0.N, Case (t.val % 8) (grid0.coords t) :=
  (by decide +kernel : ∀ t : Fin grid0.N, Case (t.val % 8) (grid0.coords t))

theorem liveAt0 : ∀ (w : Fin cfg0.W) (t : Fin cfg0.N), cfg0.idle w (grid0.coords t) = false := by decide +kernel

abbrev VO0_2 : View sig .tc .vmem S1x256x64 .f32 := (Memref.whole cc0_stg2_0 : Memref sig .tc .vmem S1x256x64 .f32).view
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x64 .f32 := win0_2.stage (cfg0.slots t 2)
abbrev hs0_2 (t : Fin cfg0.N) : (ms0_2 t).IsWhole := hstage0_2 ((cfg0.slots t 2).cast nbuf0_2)

/-- The six scratch operands: projected queries, keys and values, kept across a batch; running maximum, running sum and accumulator, reset at every point. -/
abbrev scM0_0 : Memref sig .tc .vmem S2048x64 .f32 := Memref.whole cc0_scratch0
abbrev scM0_1 : Memref sig .tc .vmem S2048x64 .f32 := Memref.whole cc0_scratch1
abbrev scM0_2 : Memref sig .tc .vmem S2048x64 .f32 := Memref.whole cc0_scratch2
abbrev scM0_3 : Memref sig .tc .vmem S256x1 .f32 := Memref.whole cc0_scratch3
abbrev scM0_4 : Memref sig .tc .vmem S256x1 .f32 := Memref.whole cc0_scratch4
abbrev scM0_5 : Memref sig .tc .vmem S256x64 .f32 := Memref.whole cc0_scratch5
abbrev VS0_0 : View sig .tc .vmem S2048x64 .f32 := scM0_0.view
abbrev VS0_1 : View sig .tc .vmem S2048x64 .f32 := scM0_1.view
abbrev VS0_2 : View sig .tc .vmem S2048x64 .f32 := scM0_2.view

/-- What the region starts with besides its operands' arrays: every scratch at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Fr

end
-- ==== Proof.KI.Run.lean ====
/-
  The body run symbolically, once for each query tile a point can have. With qi = 0 the projection branch is taken (the
  slab times the concatenated weights, its three column bands stored whole into the query, key and value scratches)
  and key tile 0 is visited; with qi ≥ 1 the scratches are read and left as found and key tiles 0..qi are visited. What
  a written operand ends with is found by the run, as a list of stores.
-/
import proofs.«431441_j5385888989914_3_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S1x2048x1024 .f32) (harg2 : arg2.IsWhole)
  (arg3 : Memref sig .tc .vmem S1024x192 .f32) (harg3 : arg3.IsWhole) (arg4 : Memref sig .tc .vmem S1x256x64 .f32) (harg4 : arg4.IsWhole)
  (arg5 : Memref sig .tc .vmem S2048x64 .f32) (harg5 : arg5.IsWhole) (arg6 : Memref sig .tc .vmem S2048x64 .f32) (harg6 : arg6.IsWhole)
  (arg7 : Memref sig .tc .vmem S2048x64 .f32) (harg7 : arg7.IsWhole) (arg8 : Memref sig .tc .vmem S256x1 .f32) (harg8 : arg8.IsWhole)
  (arg9 : Memref sig .tc .vmem S256x1 .f32) (harg9 : arg9.IsWhole) (arg10 : Memref sig .tc .vmem S256x64 .f32) (harg10 : arg10.IsWhole)

/-- A run of the body that leaves the three projection scratches as found; `L2` is what it stores to the output block. -/
abbrev KeepRun (x0 : Vec F S1x2048x1024 .f32) (x1 : Vec F S1024x192 .f32) (xs0 xs1 xs2 : Vec F S2048x64 .f32) : Type :=
  { L2 : List (View.Piece (Elt F) S1x256x64 .f32) //
    ∀ (E : Set ℕ) (K : PUnit → sProp 𝕄),
      iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ (∃ d, owns (c : Thread nD τ) arg8 fullShare d) ∗ (∃ d, owns (c : Thread nD τ) arg9 fullShare d) ∗ (∃ d, owns (c : Thread nD τ) arg10 fullShare d)
          ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs0 ∗ owns (c : Thread nD τ) arg6 fullShare xs1 ∗ owns (c : Thread nD τ) arg7 fullShare xs2 ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f)) -∗ K ⟨⟩))
        ⊢ wp frame (wpE (defs₀ (F := F)) Variants.none c none) E (cc0__fused_kernel i arg2 harg2 arg3 harg3 arg4 harg4 arg5 harg5 arg6 harg6 arg7 harg7 arg8 harg8 arg9 harg9 arg10 harg10) K }

set_option maxHeartbeats 4000000 in

/-- qi = 0: the scratches start at anything and end with the stores `LS0`, `LS1`, `LS2`. -/
noncomputable def kernelRun0_q0 (hq : Case 0 i) (x0 : Vec F S1x2048x1024 .f32) (x1 : Vec F S1024x192 .f32) :
    Σ' (L2 : List (View.Piece (Elt F) S1x256x64 .f32)) (LS0 : List (View.Piece (Elt F) S2048x64 .f32)) (LS1 : List (View.Piece (Elt F) S2048x64 .f32)), { LS2 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, ?_, fun E K => ?run⟩
  case run =>
    first | have hc0 := hq.1.mpr (by omega) | have hc0 := mt hq.1.mp (by omega)
    have hc1 := hq.2.1.mpr (by omega)
    first | have hc2 := hq.2.2.1.mpr (by omega) | have hc2 := mt hq.2.2.1.mp (by omega)
    first | have hc3 := hq.2.2.2.1.mpr (by omega) | have hc3 := mt hq.2.2.2.1.mp (by omega)
    first | have hc4 := hq.2.2.2.2.1.mpr (by omega) | have hc4 := mt hq.2.2.2.2.1.mp (by omega)
    first | have hc5 := hq.2.2.2.2.2.1.mpr (by omega) | have hc5 := mt hq.2.2.2.2.2.1.mp (by omega)
    first | have hc6 := hq.2.2.2.2.2.2.1.mpr (by omega) | have hc6 := mt hq.2.2.2.2.2.2.1.mp (by omega)
    first | have hc7 := hq.2.2.2.2.2.2.2.1.mpr (by omega) | have hc7 := mt hq.2.2.2.2.2.2.2.1.mp (by omega)
    first | have hc8 := hq.2.2.2.2.2.2.2.2.mpr (by omega) | have hc8 := mt hq.2.2.2.2.2.2.2.2.mp (by omega)
    simp only [cc0__fused_kernel_eq_skeleton]; unfold cc0__fused_kernel_skel
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1
    sl_exec (disch := first | exact hc0 | exact hc1 | exact hc2 | exact hc3 | exact hc4 | exact hc5 | exact hc6 | exact hc7 | exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

set_option maxHeartbeats 8000000 in

/-- qi = q, 1 ≤ q ≤ 7: one run per value of q, the same steps each time, the branches decided by `Case q i`. -/
noncomputable def kernelRunKeep (q : ℕ) (hq : Case q i) (hq1 : q ≠ 0) (hq7 : q < 8) (x0 : Vec F S1x2048x1024 .f32) (x1 : Vec F S1024x192 .f32)
    (xs0 xs1 xs2 : Vec F S2048x64 .f32) : KeepRun c i arg2 harg2 arg3 harg3 arg4 harg4 arg5 harg5 arg6 harg6 arg7 harg7 arg8 harg8 arg9 harg9 arg10 harg10 x0 x1 xs0 xs1 xs2 := by
  rcases q with _|_|_|_|_|_|_|_|q <;> first | exact absurd rfl hq1 | exact absurd hq7 (by omega) | skip
  all_goals
    refine ⟨?_, fun E K => ?run⟩
    case run =>
      first | have hc0 := hq.1.mpr (by omega) | have hc0 := mt hq.1.mp (by omega)
      have hc1 := hq.2.1.mpr (by omega)
      first | have hc2 := hq.2.2.1.mpr (by omega) | have hc2 := mt hq.2.2.1.mp (by omega)
      first | have hc3 := hq.2.2.2.1.mpr (by omega) | have hc3 := mt hq.2.2.2.1.mp (by omega)
      first | have hc4 := hq.2.2.2.2.1.mpr (by omega) | have hc4 := mt hq.2.2.2.2.1.mp (by omega)
      first | have hc5 := hq.2.2.2.2.2.1.mpr (by omega) | have hc5 := mt hq.2.2.2.2.2.1.mp (by omega)
      first | have hc6 := hq.2.2.2.2.2.2.1.mpr (by omega) | have hc6 := mt hq.2.2.2.2.2.2.1.mp (by omega)
      first | have hc7 := hq.2.2.2.2.2.2.2.1.mpr (by omega) | have hc7 := mt hq.2.2.2.2.2.2.2.1.mp (by omega)
      first | have hc8 := hq.2.2.2.2.2.2.2.2.mpr (by omega) | have hc8 := mt hq.2.2.2.2.2.2.2.2.mp (by omega)
      simp only [cc0__fused_kernel_eq_skeleton]; unfold cc0__fused_kernel_skel
      unfold owns
      iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, Hk⟩
      obtain rfl := harg2.eq_unread hf0; obtain rfl := harg3.eq_unread hf1
      obtain rfl := harg5.eq_unread hfs0; obtain rfl := harg6.eq_unread hfs1; obtain rfl := harg7.eq_unread hfs2
      sl_exec (disch := first | exact hc0 | exact hc1 | exact hc2 | exact hc3 | exact hc4 | exact hc5 | exact hc6 | exact hc7 | exact hc8)
      sl_step
      iapply Hk
      isplitl [H0]
      · iexists _; isplitr; · ipureintro; exact harg2.read_unread _
        iexact H0
      isplitl [H1]
      · iexists _; isplitr; · ipureintro; exact harg3.read_unread _
        iexact H1
      isplitl [H2]; · iexists _; iexact H2
      isplitl [HS0]
      · iexists _; isplitr; · ipureintro; exact harg5.read_unread _
        iexact HS0
      isplitl [HS1]
      · iexists _; isplitr; · ipureintro; exact harg6.read_unread _
        iexact HS1
      isplitl [HS2]
      · iexists _; isplitr; · ipureintro; exact harg7.read_unread _
        iexact HS2
      isplitl [HS3]; · iexists _; iexact HS3
      isplitl [HS4]; · iexists _; iexact HS4
      iexists _; iexact HS5

end Cert.KernelIdeal.Fr

end
-- ==== Proof.KI.Frame.lean ====
/-
  The runs assembled over the grid. The stores each run found become contents; the contents after each point are
  defined by recursion on the point (with qi = 0 the three projection scratches restart from the point's own slab,
  otherwise they are kept); the invariant between points carries the scratches at those contents; the library's launch
  theorem turns the per-point statement into a run of the whole program.
-/
import proofs.«431441_j5385888989914_3_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Covers
variable (c : Dev nD) (i : grid0.Coords) (arg2 : Memref sig .tc .vmem S1x2048x1024 .f32) (harg2 : arg2.IsWhole)
  (arg3 : Memref sig .tc .vmem S1024x192 .f32) (harg3 : arg3.IsWhole) (arg4 : Memref sig .tc .vmem S1x256x64 .f32) (harg4 : arg4.IsWhole)
  (arg5 : Memref sig .tc .vmem S2048x64 .f32) (harg5 : arg5.IsWhole) (arg6 : Memref sig .tc .vmem S2048x64 .f32) (harg6 : arg6.IsWhole)
  (arg7 : Memref sig .tc .vmem S2048x64 .f32) (harg7 : arg7.IsWhole) (arg8 : Memref sig .tc .vmem S256x1 .f32) (harg8 : arg8.IsWhole)
  (arg9 : Memref sig .tc .vmem S256x1 .f32) (harg9 : arg9.IsWhole) (arg10 : Memref sig .tc .vmem S256x64 .f32) (harg10 : arg10.IsWhole)
  (x0 : Vec F S1x2048x1024 .f32) (x1 : Vec F S1024x192 .f32) (xs0 xs1 xs2 : Vec F S2048x64 .f32)

/-- Each run's stores into an operand cover it. -/
theorem cover0_q0_2 (hq) (y : S1x256x64.Idx) : ∃ pc ∈ (kernelRun0_q0 c i arg2 harg2 arg3 harg3 arg4 harg4 arg5 harg5 arg6 harg6 arg7 harg7 arg8 harg8 arg9 harg9 arg10 harg10 hq x0 x1).1, y ∈ pc.1.set :=
  View.cover_of_tiledL _ S1x256x64.size (by sl_kernel_rfl) y
theorem scover0_q0_0 (hq) (y : S2048x64.Idx) : ∃ pc ∈ (kernelRun0_q0 c i arg2 harg2 arg3 harg3 arg4 harg4 arg5 harg5 arg6 harg6 arg7 harg7 arg8 harg8 arg9 harg9 arg10 harg10 hq x0 x1).2.1, y ∈ pc.1.set :=
  View.cover_of_tiledL _ S2048x64.size (by sl_kernel_rfl) y
theorem scover0_q0_1 (hq) (y : S2048x64.Idx) : ∃ pc ∈ (kernelRun0_q0 c i arg2 harg2 arg3 harg3 arg4 harg4 arg5 harg5 arg6 harg6 arg7 harg7 arg8 harg8 arg9 harg9 arg10 harg10 hq x0 x1).2.2.1, y ∈ pc.1.set :=
  View.cover_of_tiledL _ S2048x64.size (by sl_kernel_rfl) y
theorem scover0_q0_2 (hq) (y : S2048x64.Idx) : ∃ pc ∈ (kernelRun0_q0 c i arg2 harg2 arg3 harg3 arg4 harg4 arg5 harg5 arg6 harg6 arg7 harg7 arg8 harg8 arg9 harg9 arg10 harg10 hq x0 x1).2.2.2.1, y ∈ pc.1.set :=
  View.cover_of_tiledL _ S2048x64.size (by sl_kernel_rfl) y
theorem cover_keep (q hq hq1 hq7) (y : S1x256x64.Idx) :
    ∃ pc ∈ (kernelRunKeep c i arg2 harg2 arg3 harg3 arg4 harg4 arg5 harg5 arg6 harg6 arg7 harg7 arg8 harg8 arg9 harg9 arg10 harg10 q hq hq1 hq7 x0 x1 xs0 xs1 xs2).1, y ∈ pc.1.set := by
  rcases q with _|_|_|_|_|_|_|_|q <;>
    first | exact absurd rfl hq1 | exact absurd hq7 (by omega) | exact View.cover_of_tiledL _ S1x256x64.size (by sl_kernel_rfl) y

end Covers

/-- The three projection scratches' contents. -/
abbrev Scr (F : FTy → Type) : Type := Vec F S2048x64 .f32 × Vec F S2048x64 .f32 × Vec F S2048x64 .f32

/-- The output block and the three scratches after a point. -/
abbrev OutT (F : FTy → Type) : Type := Vec F S1x256x64 .f32 × Scr F

/-- The body's run at a point with qi = 0, on the point's own blocks. -/
abbrev firstAt (c : Dev nD) (t : Fin cfg0.N) (h : t.val % 8 = 0) :=
  kernelRun0_q0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) (h ▸ case_at t) (iblk m c 0 t) (iblk m c 1 t)

/-- The body's run at any other point, from the scratches `s` the point before left. -/
abbrev keepAt (c : Dev nD) (t : Fin cfg0.N) (h : t.val % 8 ≠ 0) (s : Scr F) :=
  kernelRunKeep c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) (t.val % 8) (case_at t) h (Nat.mod_lt _ (by decide)) (iblk m c 0 t) (iblk m c 1 t) s.1 s.2.1 s.2.2

/-- qi = 0: every written operand's stores, read back. -/
def caseQ0 (c : Dev nD) (t : Fin cfg0.N) (h : t.val % 8 = 0) : OutT F :=
  (VO0_2.read (Elt F) (VO0_2.writes (Elt F) VO0_2.junk (firstAt m c t h).1),
   VS0_0.read (Elt F) (VS0_0.writes (Elt F) VS0_0.junk (firstAt m c t h).2.1),
   VS0_1.read (Elt F) (VS0_1.writes (Elt F) VS0_1.junk (firstAt m c t h).2.2.1),
   VS0_2.read (Elt F) (VS0_2.writes (Elt F) VS0_2.junk (firstAt m c t h).2.2.2.1))

/-- qi ≠ 0: the output block's stores read back; the scratches `s` kept. -/
def caseKeep (c : Dev nD) (t : Fin cfg0.N) (h : t.val % 8 ≠ 0) (s : Scr F) : OutT F :=
  (VO0_2.read (Elt F) (VO0_2.writes (Elt F) VO0_2.junk (keepAt m c t h s).1), s)

/-- The output block and the scratches after the body at position `n`. -/
def outsAt0 (c : Dev nD) : (n : ℕ) → n < cfg0.N → OutT F
  | 0, hn => caseQ0 m c ⟨0, hn⟩ (Nat.zero_mod _)
  | n + 1, hn =>
    if h : (n + 1) % 8 = 0 then caseQ0 m c ⟨n + 1, hn⟩ h
    else caseKeep m c ⟨n + 1, hn⟩ h (outsAt0 c n (Nat.lt_of_succ_lt hn)).2

theorem outsAt0_q0 (c : Dev nD) (t : Fin cfg0.N) (h : t.val % 8 = 0) : outsAt0 m c t.val t.isLt = caseQ0 m c t h := by
  obtain ⟨n, hn⟩ := t
  cases n with
  | zero => rfl
  | succ n => exact dif_pos h

theorem outsAt0_keep (c : Dev nD) (t : Fin cfg0.N) (h : t.val % 8 ≠ 0) :
    outsAt0 m c t.val t.isLt = caseKeep m c t h (outsAt0 m c (t.val - 1) (Nat.lt_of_le_of_lt (Nat.sub_le _ _) t.isLt)).2 := by
  obtain ⟨n, hn⟩ := t
  cases n with
  | zero => exact absurd (Nat.zero_mod _) h
  | succ n => exact dif_neg h

/-- Between points: before the first, every scratch at anything; later the projection scratches at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-- What the launch theorem asks for: the arrays at entry, each operand's contents after the body at a point, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem hin (c : Dev nD) : Pipeline.ΦA spec0 c ⊢ (dats m 0 c).Φ 0 := by
  rw [show (dats m 0 c).Φ 0 = Pipeline.ΦA spec0 c from rfl]
  try exact Idealize.SL.BI.Entails.refl _

/-- At any position the invariant can forget the scratches' contents. -/
theorem Phi_le (c : Dev nD) (t : Fin (cfg0.N + 1)) : (dats m 0 c).Φ t ⊢ Pipeline.ΦA spec0 c := by
  by_cases ht : t.val = 0
  · rw [show (dats m 0 c).Φ t = PhiS m c t.val (Nat.le_of_lt_succ t.isLt) from rfl]
    obtain ⟨n, hn⟩ := t
    obtain rfl : n = 0 := ht
    exact Idealize.SL.BI.Entails.refl _
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexact HS3
    isplitl [HS4]; · iexact HS4
    iexact HS5
  iexact Hg

/-- What the body is given at point `t`, and what it gives back. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in

/-- The body at any point. With qi = 0 the scratches are taken at anything, since the projection overwrites them; otherwise at what the point before left. Either run's stores, read back, are this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0 0 t], after0_0]
  rw [show (dats m 0 c).leavesExact 1 t = owns (c : Thread nD τ) (ms0_1 t) fullShare ((dats m 0 c).after 1 t) from by
    unfold Dat.leavesExact; rw [liveAt0 1 t], after0_1]
  rw [show (dats m 0 c).leavesExact 2 t = owns (c : Thread nD τ) (ms0_2 t) fullShare ((dats m 0 c).after 2 t) from by
    unfold Dat.leavesExact; rw [liveAt0 2 t], after0_2]
  by_cases h0 : t.val % 8 = 0
  · rw [outsAt0_q0 m c t h0]
    unfold caseQ0; (try dsimp only)
    refine (sep_mono_left (Phi_le m c t.castSucc)).trans ?_
    rw [PhiA0_eq]
    iintro ⟨⟨⟨HS0, HS1, HS2, HS3, HS4, HS5⟩, Hg⟩, Ho, ⟨%d0, H0⟩, ⟨%d1, H1⟩, ⟨%d2, H2⟩⟩
    iapply ((firstAt m c t h0).2.2.2.2 _ _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, ⟨%e2, H2⟩, ⟨%es0, HS0⟩, ⟨%es1, HS1⟩, ⟨%es2, HS2⟩, ⟨%e3, HS3⟩, ⟨%e4, HS4⟩, ⟨%e5, HS5⟩⟩
    isplitl [HS0 HS1 HS2 HS3 HS4 HS5 Hg]
    · isplitl [HS0 HS1 HS2 HS3 HS4 HS5]
      · isplitl [HS0]
        · unfold owns; iexists _; isplitr
          swap; · iexact HS0
          ipureintro; exact View.read_writes_of_cover _ _ _ _ _ (scover0_q0_0 c (grid0.coords t) (ms0_0 t) _ (ms0_1 t) _ (ms0_2 t) _ scM0_0 _ scM0_1 _ scM0_2 _ scM0_3 _ scM0_4 _ scM0_5 _ _ _ _)
        isplitl [HS1]
        · unfold owns; iexists _; isplitr
          swap; · iexact HS1
          ipureintro; exact View.read_writes_of_cover _ _ _ _ _ (scover0_q0_1 c (grid0.coords t) (ms0_0 t) _ (ms0_1 t) _ (ms0_2 t) _ scM0_0 _ scM0_1 _ scM0_2 _ scM0_3 _ scM0_4 _ scM0_5 _ _ _ _)
        isplitl [HS2]
        · unfold owns; iexists _; isplitr
          swap; · iexact HS2
          ipureintro; exact View.read_writes_of_cover _ _ _ _ _ (scover0_q0_2 c (grid0.coords t) (ms0_0 t) _ (ms0_1 t) _ (ms0_2 t) _ scM0_0 _ scM0_1 _ scM0_2 _ scM0_3 _ scM0_4 _ scM0_5 _ _ _ _)
        isplitl [HS3]
        · iexists (scM0_3.view.read (Elt F) e3); unfold owns; iexists e3; isplitr
          · ipureintro; rfl
          iexact HS3
        isplitl [HS4]
        · iexists (scM0_4.view.read (Elt F) e4); unfold owns; iexists e4; isplitr
          · ipureintro; rfl
          iexact HS4
        iexists (scM0_5.view.read (Elt F) e5); unfold owns; iexists e5; isplitr
        · ipureintro; rfl
        iexact HS5
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_q0_2 c (grid0.coords t) (ms0_0 t) _ (ms0_1 t) _ (ms0_2 t) _ scM0_0 _ scM0_1 _ scM0_2 _ scM0_3 _ scM0_4 _ scM0_5 _ _ _ _)
  · rw [outsAt0_keep m c t h0]
    unfold caseKeep; (try dsimp only)
    rw [PhiS_castSucc m c t, PhiS_pos m c _ _ (fun hz => h0 (by rw [hz]))]
    iintro ⟨⟨⟨HS0, HS1, HS2, HS3, HS4, HS5⟩, Hg⟩, Ho, ⟨%d0, H0⟩, ⟨%d1, H1⟩, ⟨%d2, H2⟩⟩
    iapply ((keepAt m c t h0 _).2 _ _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, ⟨%e2, H2⟩, HS0, HS1, HS2, ⟨%e3, HS3⟩, ⟨%e4, HS4⟩, ⟨%e5, HS5⟩⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]
        · iexists (scM0_3.view.read (Elt F) e3); unfold owns; iexists e3; isplitr
          · ipureintro; rfl
          iexact HS3
        isplitl [HS4]
        · iexists (scM0_4.view.read (Elt F) e4); unfold owns; iexists e4; isplitr
          · ipureintro; rfl
          iexact HS4
        iexists (scM0_5.view.read (Elt F) e5); unfold owns; iexists e5; isplitr
        · ipureintro; rfl
        iexact HS5
      iexact Hg
    isplitl [Ho]; · iexact Ho
    isplitl [H0]; · iexact H0
    isplitl [H1]; · iexact H1
    unfold owns; iexists _; isplitr
    swap; · iexact H2
    ipureintro; exact View.read_writes_of_cover _ _ _ _ _ (cover_keep c (grid0.coords t) (ms0_0 t) _ (ms0_1 t) _ (ms0_2 t) _ scM0_0 _ scM0_1 _ scM0_2 _ scM0_3 _ scM0_4 _ scM0_5 _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in

/-- Every weakly fair execution of the program terminates, each operand's array at what the launch theorem computes from `dats`. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := fun c => Phi_le m c _)

/-- The four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_of m ρ (dats m) (A_eq m) (run_main m ρ))

end Cert.KernelIdeal.Fr

end
-- ==== Proof.KI.Chain.lean ====
/-
  The kernel's carried triple over the body's arithmetic: `carry0` the reset, `stepk` the update at key tile k, and
  `chain i Q K V n` the carry after the first n key tiles for the query tile at grid coordinates `i`, from the
  contents of the three projection scratches.
-/
import proofs.«431441_j5385888989914_3_alg».proof.Proof.Gen.KernelIdeal.Skeleton
import Idealize.ShloMosaic.Lib.Pipeline.FrameBody

noncomputable section

namespace Cert.KernelIdeal.Chain

open Cert.KernelIdeal Cert.KernelIdeal.Gen
open Idealize.ShloMosaic Idealize.ShloMosaic.TcCoe

variable {F : FTy → Type} [FloatOps F] [Named F]

abbrev Carry (F : FTy → Type) [FloatOps F] : Type := Vec F S256x1 .f32 × Vec F S256x1 .f32 × Vec F S256x64 .f32

def carry0 : Carry F := (k0_pay72, k0_pay73, k0_pay74)

/-- 256 consecutive rows of a scratch. -/
abbrev rows (X : Vec F S2048x64 .f32) (off : Fin 2 → Nat) (inb : ∀ a, off a + S256x64.size a ≤ S2048x64.size a) : Vec F S256x64 .f32 :=
  View.ld X (Rect.unit (s := S2048x64) off S256x64.size inb)

def step0 (a1 : BitVec 32) (q : FVec F S256x64 .bf16) (kt vt : Vec F S256x64 .f32) (s : Carry F) : Carry F :=
  (k0_pay77 (k0_pay14 a1 q kt s.1), k0_pay17 a1 q kt s.1 s.1 s.2.1, k0_pay76 (k0_pay12 vt) (k0_pay16 a1 q kt s.1) (k0_pay18 a1 q kt s.1 s.1 s.2.2))

def step1 (a1 : BitVec 32) (q : FVec F S256x64 .bf16) (kt vt : Vec F S256x64 .f32) (s : Carry F) : Carry F :=
  (k0_pay79 (k0_pay21 a1 q kt s.1), k0_pay24 a1 q kt s.1 s.1 s.2.1, k0_pay78 (k0_pay19 vt) (k0_pay23 a1 q kt s.1) (k0_pay25 a1 q kt s.1 s.1 s.2.2))

def step2 (a1 : BitVec 32) (q : FVec F S256x64 .bf16) (kt vt : Vec F S256x64 .f32) (s : Carry F) : Carry F :=
  (k0_pay81 (k0_pay28 a1 q kt s.1), k0_pay31 a1 q kt s.1 s.1 s.2.1, k0_pay80 (k0_pay26 vt) (k0_pay30 a1 q kt s.1) (k0_pay32 a1 q kt s.1 s.1 s.2.2))

def step3 (a1 : BitVec 32) (q : FVec F S256x64 .bf16) (kt vt : Vec F S256x64 .f32) (s : Carry F) : Carry F :=
  (k0_pay2 (k0_pay35 a1 q kt s.1), k0_pay38 a1 q kt s.1 s.1 s.2.1, k0_pay1 (k0_pay33 vt) (k0_pay37 a1 q kt s.1) (k0_pay39 a1 q kt s.1 s.1 s.2.2))

def step4 (a1 : BitVec 32) (q : FVec F S256x64 .bf16) (kt vt : Vec F S256x64 .f32) (s : Carry F) : Carry F :=
  (k0_pay4 (k0_pay42 a1 q kt s.1), k0_pay45 a1 q kt s.1 s.1 s.2.1, k0_pay3 (k0_pay40 vt) (k0_pay44 a1 q kt s.1) (k0_pay46 a1 q kt s.1 s.1 s.2.2))

def step5 (a1 : BitVec 32) (q : FVec F S256x64 .bf16) (kt vt : Vec F S256x64 .f32) (s : Carry F) : Carry F :=
  (k0_pay6 (k0_pay49 a1 q kt s.1), k0_pay52 a1 q kt s.1 s.1 s.2.1, k0_pay5 (k0_pay47 vt) (k0_pay51 a1 q kt s.1) (k0_pay53 a1 q kt s.1 s.1 s.2.2))

def step6 (a1 : BitVec 32) (q : FVec F S256x64 .bf16) (kt vt : Vec F S256x64 .f32) (s : Carry F) : Carry F :=
  (k0_pay8 (k0_pay56 a1 q kt s.1), k0_pay59 a1 q kt s.1 s.1 s.2.1, k0_pay7 (k0_pay54 vt) (k0_pay58 a1 q kt s.1) (k0_pay60 a1 q kt s.1 s.1 s.2.2))

def step7 (a1 : BitVec 32) (q : FVec F S256x64 .bf16) (kt vt : Vec F S256x64 .f32) (s : Carry F) : Carry F :=
  (k0_pay10 (k0_pay63 a1 q kt s.1), k0_pay66 a1 q kt s.1 s.1 s.2.1, k0_pay9 (k0_pay61 vt) (k0_pay65 a1 q kt s.1) (k0_pay67 a1 q kt s.1 s.1 s.2.2))

abbrev a1 (i : grid0.Coords) : BitVec 32 := BitVec.ofNat 32 (i 1).val

abbrev qtile (i : grid0.Coords) (Q : Vec F S2048x64 .f32) : FVec F S256x64 .bf16 := k0_pay75 (rows Q (k0_off1 i) (k0_off1_inb i))

/-- The carry after the first `n` key tiles. -/
def chain (i : grid0.Coords) (Q K V : Vec F S2048x64 .f32) : Nat → Carry F
  | 0 => carry0
  | 1 => step0 (a1 i) (qtile i Q) (rows K ![0, 0] inb_S2048x64_S256x64_0_0) (rows V ![0, 0] inb_S2048x64_S256x64_0_0) (chain i Q K V 0)
  | 2 => step1 (a1 i) (qtile i Q) (rows K ![256, 0] inb_S2048x64_S256x64_256_0) (rows V ![256, 0] inb_S2048x64_S256x64_256_0) (chain i Q K V 1)
  | 3 => step2 (a1 i) (qtile i Q) (rows K ![512, 0] inb_S2048x64_S256x64_512_0) (rows V ![512, 0] inb_S2048x64_S256x64_512_0) (chain i Q K V 2)
  | 4 => step3 (a1 i) (qtile i Q) (rows K ![768, 0] inb_S2048x64_S256x64_768_0) (rows V ![768, 0] inb_S2048x64_S256x64_768_0) (chain i Q K V 3)
  | 5 => step4 (a1 i) (qtile i Q) (rows K ![1024, 0] inb_S2048x64_S256x64_1024_0) (rows V ![1024, 0] inb_S2048x64_S256x64_1024_0) (chain i Q K V 4)
  | 6 => step5 (a1 i) (qtile i Q) (rows K ![1280, 0] inb_S2048x64_S256x64_1280_0) (rows V ![1280, 0] inb_S2048x64_S256x64_1280_0) (chain i Q K V 5)
  | 7 => step6 (a1 i) (qtile i Q) (rows K ![1536, 0] inb_S2048x64_S256x64_1536_0) (rows V ![1536, 0] inb_S2048x64_S256x64_1536_0) (chain i Q K V 6)
  | 8 => step7 (a1 i) (qtile i Q) (rows K ![1792, 0] inb_S2048x64_S256x64_1792_0) (rows V ![1792, 0] inb_S2048x64_S256x64_1792_0) (chain i Q K V 7)
  | _ + 9 => carry0

/-- The stored block: accumulator over running sum. -/
def outOf (s : Carry F) : FVec F S1x256x64 .f32 := k0_pay11 s.2.2 s.2.1

end Cert.KernelIdeal.Chain

end
-- ==== Proof.KI.Pieces.lean ====
/-
  What the runs stored, as the body's arithmetic: with qi = 0 the three column bands of the slab-times-weights product
  go to the query, key and value scratches; at every point the output block gets accumulator over running sum after the
  point's key tiles (`Chain.chain`), computed from the scratches' contents.
-/
import proofs.«431441_j5385888989914_3_alg».proof.Proof.KI.Frame
import proofs.«431441_j5385888989914_3_alg».proof.Proof.KI.Chain
import Idealize.ShloMosaic.Lib.Pipeline.Value

set_option maxRecDepth 16384

noncomputable section

namespace Cert.KernelIdeal.Fr

open Cert.KernelIdeal Cert.KernelIdeal.Gen Cert.KernelIdeal.Chain
open Idealize.ShloMosaic Idealize.ShloMosaic.TcCoe Idealize.ShloMosaic.Tactic
open Idealize.SL Idealize.SL.Sem

variable {F : FTy → Type} [FloatOps F] [Named F]

theorem hz2 : (![0, 0] : Fin 2 → Nat) = fun _ => 0 := by funext a; fin_cases a <;> rfl
theorem hz3 : (![0, 0, 0] : Fin 3 → Nat) = fun _ => 0 := by funext a; fin_cases a <;> rfl

section Reads
variable {Val : EltTy → Type} [∀ e, Nonempty (Val e)] {sig : RefSig} {κ : Kind} {sp : Space} {S : Shape} {e : EltTy}

/-- Reading back a whole-buffer store, a box of it, or the contents it leaves: the stored value. -/
theorem readCov_whole_cons (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon', View.canon_cons_unit_zero h]
  exact View.ld_unit_zero h inb w

theorem readCov_box (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon', View.canon_unit_zero h]

theorem read_writes_junk_whole (v : View sig κ sp S e) {off : Fin S.rank → Nat} (h : off = fun _ => 0)
    (inb : ∀ a, off a + S.size a ≤ S.size a) (w : S.Idx → Val e) :
    v.read Val (v.writes Val v.junk [(⟨Rect.unit off S.size inb, w⟩ : View.Piece Val S e)]) = w := by
  funext y; exact (View.read_writes_junk_apply_eq_canon v y _).trans (congrFun (View.canon_unit_zero h inb w) y)

end Reads

variable (c : Dev nD) (i : grid0.Coords) (arg2 : Memref sig .tc .vmem S1x2048x1024 .f32) (harg2 : arg2.IsWhole)
  (arg3 : Memref sig .tc .vmem S1024x192 .f32) (harg3 : arg3.IsWhole) (arg4 : Memref sig .tc .vmem S1x256x64 .f32) (harg4 : arg4.IsWhole)
  (arg5 : Memref sig .tc .vmem S2048x64 .f32) (harg5 : arg5.IsWhole) (arg6 : Memref sig .tc .vmem S2048x64 .f32) (harg6 : arg6.IsWhole)
  (arg7 : Memref sig .tc .vmem S2048x64 .f32) (harg7 : arg7.IsWhole) (arg8 : Memref sig .tc .vmem S256x1 .f32) (harg8 : arg8.IsWhole)
  (arg9 : Memref sig .tc .vmem S256x1 .f32) (harg9 : arg9.IsWhole) (arg10 : Memref sig .tc .vmem S256x64 .f32) (harg10 : arg10.IsWhole)
  (x0 : Vec F S1x2048x1024 .f32) (x1 : Vec F S1024x192 .f32) (xs0 xs1 xs2 : Vec F S2048x64 .f32)

/-- The projection leaves bands 0, 1, 2 of the product in the query, key and value scratches. -/
theorem first_scr (hq) :
    VS0_0.read (Elt F) (VS0_0.writes (Elt F) VS0_0.junk (kernelRun0_q0 c i arg2 harg2 arg3 harg3 arg4 harg4 arg5 harg5 arg6 harg6 arg7 harg7 arg8 harg8 arg9 harg9 arg10 harg10 hq x0 x1).2.1) = k0_pay69 x0 x1
    ∧ VS0_1.read (Elt F) (VS0_1.writes (Elt F) VS0_1.junk (kernelRun0_q0 c i arg2 harg2 arg3 harg3 arg4 harg4 arg5 harg5 arg6 harg6 arg7 harg7 arg8 harg8 arg9 harg9 arg10 harg10 hq x0 x1).2.2.1) = k0_pay70 x0 x1
    ∧ VS0_2.read (Elt F) (VS0_2.writes (Elt F) VS0_2.junk (kernelRun0_q0 c i arg2 harg2 arg3 harg3 arg4 harg4 arg5 harg5 arg6 harg6 arg7 harg7 arg8 harg8 arg9 harg9 arg10 harg10 hq x0 x1).2.2.2.1) = k0_pay71 x0 x1 := by
  refine ⟨?_, ?_, ?_⟩
  · rw [View.read_writes_eq_canon _ _ _ (scover0_q0_0 c i arg2 harg2 arg3 harg3 arg4 harg4 arg5 harg5 arg6 harg6 arg7 harg7 arg8 harg8 arg9 harg9 arg10 harg10 x0 x1 hq)]
    unfold kernelRun0_q0; dsimp only; sl_unfold_run_names
    rw [View.canon_unit_zero hz2]
    simp only [View.readAt_eq_ld, harg2.read_unread, harg3.read_unread, View.ld_unit_zero (S := S1x2048x1024) hz3, View.ld_unit_zero (S := S1024x192) hz2]
  · rw [View.read_writes_eq_canon _ _ _ (scover0_q0_1 c i arg2 harg2 arg3 harg3 arg4 harg4 arg5 harg5 arg6 harg6 arg7 harg7 arg8 harg8 arg9 harg9 arg10 harg10 x0 x1 hq)]
    unfold kernelRun0_q0; dsimp only; sl_unfold_run_names
    rw [View.canon_unit_zero hz2]
    simp only [View.readAt_eq_ld, harg2.read_unread, harg3.read_unread, View.ld_unit_zero (S := S1x2048x1024) hz3, View.ld_unit_zero (S := S1024x192) hz2]
  · rw [View.read_writes_eq_canon _ _ _ (scover0_q0_2 c i arg2 harg2 arg3 harg3 arg4 harg4 arg5 harg5 arg6 harg6 arg7 harg7 arg8 harg8 arg9 harg9 arg10 harg10 x0 x1 hq)]
    unfold kernelRun0_q0; dsimp only; sl_unfold_run_names
    rw [View.canon_unit_zero hz2]
    simp only [View.readAt_eq_ld, harg2.read_unread, harg3.read_unread, View.ld_unit_zero (S := S1x2048x1024) hz3, View.ld_unit_zero (S := S1024x192) hz2]

/-- qi = 0: the stored block is the quotient after key tile 0, from the bands just stored. -/
theorem first_out (hq) :
    VO0_2.read (Elt F) (VO0_2.writes (Elt F) VO0_2.junk (kernelRun0_q0 c i arg2 harg2 arg3 harg3 arg4 harg4 arg5 harg5 arg6 harg6 arg7 harg7 arg8 harg8 arg9 harg9 arg10 harg10 hq x0 x1).1)
      = outOf (chain i (k0_pay69 x0 x1) (k0_pay70 x0 x1) (k0_pay71 x0 x1) 1) := by
  rw [View.read_writes_eq_canon _ _ _ (cover0_q0_2 c i arg2 harg2 arg3 harg3 arg4 harg4 arg5 harg5 arg6 harg6 arg7 harg7 arg8 harg8 arg9 harg9 arg10 harg10 x0 x1 hq)]
  unfold kernelRun0_q0; dsimp only; sl_unfold_run_names
  rw [View.canon_unit_zero hz3]
  simp only [View.readAt_eq_ld, harg2.read_unread, harg3.read_unread,
    read_writes_junk_whole (S := S2048x64) _ hz2, readCov_box (S := S2048x64) _ hz2,
    readCov_whole_cons (S := S256x1) _ hz2, readCov_whole_cons (S := S256x64) _ hz2,
    View.ld_unit_zero (S := S1x2048x1024) hz3, View.ld_unit_zero (S := S1024x192) hz2,
    View.ld_unit_zero (S := S256x1) hz2, View.ld_unit_zero (S := S256x64) hz2]
  simp only [outOf, chain, step0, carry0]

/-- 1 ≤ q ≤ 7: the stored block is the quotient after key tiles 0..q, from the scratches as found. -/
theorem keep_out (q hq hq1 hq7) :
    VO0_2.read (Elt F) (VO0_2.writes (Elt F) VO0_2.junk (kernelRunKeep c i arg2 harg2 arg3 harg3 arg4 harg4 arg5 harg5 arg6 harg6 arg7 harg7 arg8 harg8 arg9 harg9 arg10 harg10 q hq hq1 hq7 x0 x1 xs0 xs1 xs2).1)
      = outOf (chain i xs0 xs1 xs2 (q + 1)) := by
  rw [View.read_writes_eq_canon _ _ _ (cover_keep c i arg2 harg2 arg3 harg3 arg4 harg4 arg5 harg5 arg6 harg6 arg7 harg7 arg8 harg8 arg9 harg9 arg10 harg10 x0 x1 xs0 xs1 xs2 q hq hq1 hq7)]
  rcases q with _|_|_|_|_|_|_|_|q <;> first | exact absurd rfl hq1 | exact absurd hq7 (by omega) | skip
  all_goals
    unfold kernelRunKeep; dsimp only [Nat.casesAuxOn, Nat.rec_zero, Nat.rec_add_one]; sl_unfold_run_names
    rw [View.canon_unit_zero hz3]
    simp only [View.readAt_eq_ld, harg2.read_unread, harg3.read_unread, harg5.read_unread, harg6.read_unread, harg7.read_unread,
      read_writes_junk_whole (S := S2048x64) _ hz2, readCov_box (S := S2048x64) _ hz2,
      readCov_whole_cons (S := S256x1) _ hz2, readCov_whole_cons (S := S256x64) _ hz2,
      View.ld_unit_zero (S := S1x2048x1024) hz3, View.ld_unit_zero (S := S1024x192) hz2,
      View.ld_unit_zero (S := S256x1) hz2, View.ld_unit_zero (S := S256x64) hz2]
    simp only [Nat.reduceAdd, outOf, chain, step0, step1, step2, step3, step4, step5, step6, step7, carry0]

variable (m : (ℓ : Loc nD τ sig) → Buf (Elt F) ℓ)

/-- The contents after a point, by case. -/
theorem caseQ0_eq (c : Dev nD) (t : Fin cfg0.N) (h : t.val % 8 = 0) :
    caseQ0 m c t h = (outOf (chain (grid0.coords t) (k0_pay69 (iblk m c 0 t) (iblk m c 1 t)) (k0_pay70 (iblk m c 0 t) (iblk m c 1 t)) (k0_pay71 (iblk m c 0 t) (iblk m c 1 t)) 1),
      k0_pay69 (iblk m c 0 t) (iblk m c 1 t), k0_pay70 (iblk m c 0 t) (iblk m c 1 t), k0_pay71 (iblk m c 0 t) (iblk m c 1 t)) := by
  obtain ⟨e0, e1, e2⟩ := first_scr (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (h ▸ case_at t)
  unfold caseQ0
  rw [first_out, e0, e1, e2]

theorem caseKeep_eq (c : Dev nD) (t : Fin cfg0.N) (h : t.val % 8 ≠ 0) (s : Scr F) :
    caseKeep m c t h s = (outOf (chain (grid0.coords t) s.1 s.2.1 s.2.2 (t.val % 8 + 1)), s) := by
  unfold caseKeep
  rw [keep_out]

end Cert.KernelIdeal.Fr

end
-- ==== Proof.KI.Blocks.lean ====
/-
  From blocks to arrays: where each operand's block sits in its array, and that the 64 output blocks tile the result.
-/
import proofs.«431441_j5385888989914_3_alg».proof.Proof.KI.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The matrix the kernel reads is the query, key and value weights side by side. -/
theorem V_wcat (c : Dev nD) :
    (V m c main_v0 : S1024x192.Idx → EReal)
      = concatenate S1024x192 1 [⟨S1024x64, m ((c : Thread nD τ).loc main_arg2)⟩, ⟨S1024x64, m ((c : Thread nD τ).loc main_arg1)⟩,
          ⟨S1024x64, m ((c : Thread nD τ).loc main_arg3)⟩] concatenates_S1024x64_S1024x64_S1024x64_S1024x192_d1 := by
  dsimp only [V, hostOps0]
  after_results
  rfl

theorem act_index : ∀ t : Fin cfg0.N, win0_0.index t (0 : Fin 3) = t.val / 8 ∧ win0_0.index t (1 : Fin 3) = 0 ∧ win0_0.index t (2 : Fin 3) = 0 :=
  (by decide +kernel : ∀ t : Fin grid0.N, win0_0.index t (0 : Fin 3) = t.val / 8 ∧ win0_0.index t (1 : Fin 3) = 0 ∧ win0_0.index t (2 : Fin 3) = 0)

theorem wts_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem out_index : ∀ t : Fin cfg0.N, win0_2.index t (0 : Fin 3) = t.val / 8 ∧ win0_2.index t (1 : Fin 3) = t.val % 8 ∧ win0_2.index t (2 : Fin 3) = 0 :=
  (by decide +kernel : ∀ t : Fin grid0.N, win0_2.index t (0 : Fin 3) = t.val / 8 ∧ win0_2.index t (1 : Fin 3) = t.val % 8 ∧ win0_2.index t (2 : Fin 3) = 0)

/-- The activations' block at point t is batch t / 8's slab. -/
theorem xblk_apply (c : Dev nD) (t : Fin cfg0.N) (r : Fin 2048) (k : Fin 1024) :
    (iblk m c 0 t : S1x2048x1024.Idx → EReal) (ix3 (0 : Fin 1) r k)
      = m ((c : Thread nD τ).loc main_arg0) (ix3 (⟨t.val / 8, by have := t.isLt; have : cfg0.N = 64 := N_0; omega⟩ : Fin 8) r k) := by
  obtain ⟨e0, e1, e2⟩ := act_index t
  unfold iblk
  rw [View.read_apply]
  show V m c main_arg0 _ = _
  rw [V_of_ne m c (by decide)]
  congr 1
  funext a
  apply Fin.ext

  match a with
  | ⟨0, _⟩ => show win0_0.index t (0 : Fin 3) * 1 + 1 * 0 = t.val / 8; omega
  | ⟨1, _⟩ => show win0_0.index t (1 : Fin 3) * 2048 + 1 * r.val = r.val; omega
  | ⟨2, _⟩ => show win0_0.index t (2 : Fin 3) * 1024 + 1 * k.val = k.val; omega

/-- The weights' block at any point is the whole concatenated matrix. -/
theorem wblk_apply (c : Dev nD) (t : Fin cfg0.N) (k : Fin 1024) (j : Fin 192) :
    (iblk m c 1 t : S1024x192.Idx → EReal) (ix2 k j) = V m c main_v0 (ix2 k j) := by
  obtain ⟨e0, e1⟩ := wts_index t
  unfold iblk
  rw [View.read_apply]
  show V m c main_v0 _ = _
  congr 1
  funext a
  apply Fin.ext
  match a with
  | ⟨0, _⟩ => show win0_1.index t (0 : Fin 2) * 1024 + 1 * k.val = k.val; omega
  | ⟨1, _⟩ => show win0_1.index t (1 : Fin 2) * 192 + 1 * j.val = j.val; omega

theorem mem_out_block (t : Fin cfg0.N) (i : S8x2048x64.Idx) :
    i ∈ ((cfg0.win 2).blk t).view.set ↔ ∀ a : Fin 3, win0_2.index t a * S1x256x64.size a ≤ (i a).val ∧ (i a).val < win0_2.index t a * S1x256x64.size a + S1x256x64.size a := by
  show i ∈ ((View.whole main_v1).slice (win0_2.rect t)).set ↔ _
  rw [View.set_slice_whole, Rect.mem_set_unit]
  exact Iff.rfl

/-- If each point's output block is `Garr` at batch t / 8, rows 256·(t mod 8) + r, then what the point writes back is `Garr` on its block. -/
theorem flushed_of_points (c : Dev nD) (Garr : S8x2048x64.Idx → EReal)
    (hpt : ∀ (t : Fin cfg0.N) (r : Fin 256) (h : Fin 64),
      ((outsAt0 m c t.val t.isLt).1 : S1x256x64.Idx → EReal) (ix3 (0 : Fin 1) r h)
        = Garr (ix3 (⟨t.val / 8, by have := t.isLt; have : cfg0.N = 64 := N_0; omega⟩ : Fin 8)
            (⟨256 * (t.val % 8) + r.val, by have := r.isLt; omega⟩ : Fin 2048) h))
    (t : Fin cfg0.N) :
    (dats m 0 c).flushed 2 t = ((cfg0.win 2).blk t).view.read (Elt Ideal) Garr := by
  show (cfg0.win 2).cut (grid0.coords t) ((dats m 0 c).after 2 t) = _
  rw [after0_2]
  obtain ⟨e0, e1, e2⟩ := out_index t
  funext y
  show ((outsAt0 m c t.val t.isLt).1 : S1x256x64.Idx → EReal) y = Garr (((cfg0.win 2).blk t).view.emb y)
  obtain ⟨a, r, h, rfl⟩ : ∃ (a : Fin 1) (r : Fin 256) (h : Fin 64), y = ix3 a r h := ⟨y 0, y 1, y 2, eq_ix3 y⟩
  obtain rfl : a = 0 := Subsingleton.elim _ _
  refine (hpt t r h).trans ?_
  congr 1
  funext d
  apply Fin.ext
  match d with
  | ⟨0, _⟩ => show t.val / 8 = win0_2.index t (0 : Fin 3) * 1 + 1 * 0; omega
  | ⟨1, _⟩ => show 256 * (t.val % 8) + r.val = win0_2.index t (1 : Fin 3) * 256 + 1 * r.val; omega
  | ⟨2, _⟩ => show h.val = win0_2.index t (2 : Fin 3) * 64 + 1 * h.val; omega

/-- Entry (b, ρ, h) is covered by the block of point 8·b + ρ / 256, so the result array ends at `Garr`. -/
theorem final_of_points (c : Dev nD) (Garr : S8x2048x64.Idx → EReal)
    (hpt : ∀ (t : Fin cfg0.N) (r : Fin 256) (h : Fin 64),
      ((outsAt0 m c t.val t.isLt).1 : S1x256x64.Idx → EReal) (ix3 (0 : Fin 1) r h)
        = Garr (ix3 (⟨t.val / 8, by have := t.isLt; have : cfg0.N = 64 := N_0; omega⟩ : Fin 8)
            (⟨256 * (t.val % 8) + r.val, by have := r.isLt; omega⟩ : Fin 2048) h)) :
    (dats m 0 c).arrAt 2 cfg0.N = Garr :=
  (dats m 0 c).arrAt_eq_of_cover 2 Garr (fun t _ => flushed_of_points m c Garr hpt t) fun i => by
    obtain ⟨b, q, h, rfl⟩ : ∃ (b : Fin 8) (q : Fin 2048) (h : Fin 64), i = ix3 b q h := ⟨i 0, i 1, i 2, eq_ix3 i⟩
    have hb := b.isLt
    have hq := q.isLt
    have hh := h.isLt
    let t : Fin cfg0.N := ⟨8 * b.val + q.val / 256, by rw [show cfg0.N = 64 from N_0]; omega⟩
    have ht : t.val = 8 * b.val + q.val / 256 := rfl
    obtain ⟨e0, e1, e2⟩ := out_index t
    refine ⟨t, flush0_2 t, ?_⟩
    rw [mem_out_block]
    intro a
    match a with
    | ⟨0, _⟩ => show win0_2.index t (0 : Fin 3) * 1 ≤ b.val ∧ b.val < win0_2.index t (0 : Fin 3) * 1 + 1; omega
    | ⟨1, _⟩ => show win0_2.index t (1 : Fin 3) * 256 ≤ q.val ∧ q.val < win0_2.index t (1 : Fin 3) * 256 + 256; omega
    | ⟨2, _⟩ => show win0_2.index t (2 : Fin 3) * 64 ≤ h.val ∧ h.val < win0_2.index t (2 : Fin 3) * 64 + 64; omega

/-- The program's run with the result array named. -/
theorem run_value (ρ : Dev nD → PrngReg) (Garr : Dev nD → S8x2048x64.Idx → EReal)
    (hfin : ∀ c, (dats m 0 c).arrAt 2 cfg0.N = Garr c) :
    θ_run (defs (F := Ideal)) (onTc (τ := τ) (main (F := Ideal))) ⟨m, fun _ => 0, ρ⟩ (fun r => ∀ c : Dev nD,
      r.2.mem ((c.tc : Thread nD τ).loc main_v1) = Garr c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (hfin c), (h c).2⟩) (run_of m ρ (dats m) (A_eq m) (run_main m ρ))

end Cert.KernelIdeal.Blocks

end
-- ==== Proof.Spec.lean ====
/-
  Causal single-head attention on the extended reals, over plain index types, and the tiled walk the kernel uses to
  compute it: per query row a running maximum, running sum and accumulator, rescaled whenever the maximum moves.
-/
import Idealize.ShloMosaic.PureOps.Ideal
import Mathlib.Algebra.BigOperators.Fin
import Mathlib.Data.Fintype.BigOperators

noncomputable section

namespace Cert.Attn

open Idealize.ShloMosaic

abbrev Mat (a b : ℕ) := Fin a → Fin b → EReal

/-- The score scale 2⁻⁵, kept as its single-precision word. -/
def scale : EReal := Ideal.ofBits .f32 0x3D000000#32

/-- A projection: slab times weight matrix. -/
def proj (x : Mat 2048 1024) (w : Mat 1024 64) : Mat 2048 64 := fun t h => ∑ c : Fin 1024, x t c * w c h

/-- Scaled inner product of query row `t` and key row `s`, −∞ above the diagonal. -/
def score (q k : Mat 2048 64) (t s : Fin 2048) : EReal :=
  if s ≤ t then (∑ h : Fin 64, q t h * k s h) * scale else ⊥

def rowMax (q k : Mat 2048 64) (t : Fin 2048) : EReal := Finset.univ.sup (score q k t)

def weight (q k : Mat 2048 64) (t s : Fin 2048) : EReal := Ideal.exp (score q k t s - rowMax q k t)

/-- Row-wise softmax of the scores (shifted by the row maximum), applied to the values. -/
def attn (q k v : Mat 2048 64) : Mat 2048 64 := fun t h =>
  ∑ s : Fin 2048, Ideal.div (weight q k t s) (∑ s' : Fin 2048, weight q k t s') * v s h

/-- Batch `b`'s attention of its three projections. -/
def G (x : Fin 8 → Mat 2048 1024) (wk wq wv : Mat 1024 64) : Fin 8 → Mat 2048 64 := fun b =>
  attn (proj (x b) wq) (proj (x b) wk) (proj (x b) wv)

def tileRow (j : Fin 8) (r : Fin 256) : Fin 2048 := ⟨256 * j.val + r.val, by omega⟩

/-- What the walk carries per query row. -/
structure St where
  m : Fin 256 → EReal
  l : Fin 256 → EReal
  acc : Fin 256 → Fin 64 → EReal

def St.init : St := ⟨fun _ => ⊥, fun _ => 0, fun _ _ => 0⟩

/-- One key tile: `S` its masked scores, `vt` its value rows. -/
def step (S : Fin 256 → Fin 256 → EReal) (vt : Fin 256 → Fin 64 → EReal) (s : St) : St :=
  let mn : Fin 256 → EReal := fun r => max (s.m r) (Finset.univ.sup (S r))
  ⟨mn,
   fun r => Ideal.exp (s.m r - mn r) * s.l r + ∑ c : Fin 256, Ideal.exp (S r c - mn r),
   fun r h => Ideal.exp (s.m r - mn r) * s.acc r h + ∑ c : Fin 256, Ideal.exp (S r c - mn r) * vt c h⟩

def tileScore (q k : Mat 2048 64) (qi ki : Fin 8) : Fin 256 → Fin 256 → EReal := fun r c =>
  score q k (tileRow qi r) (tileRow ki c)

def tileVal (v : Mat 2048 64) (ki : Fin 8) : Fin 256 → Fin 64 → EReal := fun c h => v (tileRow ki c) h

/-- The walk for query tile `qi` over the first `n` key tiles. -/
def flash (q k v : Mat 2048 64) (qi : Fin 8) (n : ℕ) : St :=
  ((List.finRange 8).take n).foldl (fun s ki => step (tileScore q k qi ki) (tileVal v ki) s) St.init

/-- Accumulator over sum. -/
def St.out (s : St) : Fin 256 → Fin 64 → EReal := fun r h => Ideal.div (s.acc r h) (s.l r)

end Cert.Attn

end
-- ==== Proof.KI.PayTile.lean ====
/-
  One key tile's arithmetic is one `Cert.Attn.step`. The eight tiles' payloads differ only in the column offset word,
  so the body is written once with that word a parameter, read at an index, and instantiated eight times.
-/
import proofs.«431441_j5385888989914_3_alg».proof.Proof.Gen.KernelIdeal.Skeleton
import proofs.«431441_j5385888989914_3_alg».proof.Proof.Spec
import Idealize.ShloMosaic.Lib.Affine
import Idealize.ShloMosaic.Lib.ValueIdx
import Idealize.ShloMosaic.Lib.Pipeline.Value
import Idealize.ShloMosaic.PureOps.Ideal.Laws

noncomputable section

namespace Cert.KernelIdeal.PayTile

open Cert.KernelIdeal Cert.KernelIdeal.Gen Idealize.ShloMosaic Idealize.ShloMosaic.ValueIdx

theorem neg_big_eq : Named.named (F := Ideal) Cert.KernelIdeal.κ "neg_big" (φ := .f32) 0xFF333332#32 = ⊥ :=
  IdealRules.named_const.ideal_named_scalar _ _ _ _ rfl

theorem scale_eq : (Scalar.ofBits .f32 0x3D000000#32 : Ideal .f32) = Cert.Attn.scale := rfl

theorem neg_inf_eq : (FloatOps.ofBits .f32 0xFF800000#32 : Ideal .f32) = ⊥ := by
  simp [Ideal.ofBits, Ideal.ieee]

theorem toInt_small (n : ℕ) (h : n < 2 ^ 31) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- The mask's word compare at (r, c) decides column o + c ≤ row 256·qi + r. -/
theorem mask_word (qi : Fin 8) (o : ℕ) (ho : o ≤ 1792) (r c : Fin 256) :
    IntOp.cmpi .sge (IntOp.addi (Scalar.muli (BitVec.ofNat 32 qi.val) 256#32) (BitVec.ofNat 32 r.val))
        (IntOp.addi (BitVec.ofNat 32 o) (BitVec.ofNat 32 c.val)) = 1#1 ↔ o + c.val ≤ 256 * qi.val + r.val := by
  rw [IntOp.cmpi_sge]
  have h1 : IntOp.addi (Scalar.muli (BitVec.ofNat 32 qi.val) 256#32) (BitVec.ofNat 32 r.val)
      = BitVec.ofNat 32 (qi.val * 256 + r.val) := by
    simp only [IntOp.addi, Scalar.muli, IntOp.muli, BitVec.ofNat_add, BitVec.ofNat_mul]
  have h2 : IntOp.addi (BitVec.ofNat 32 o) (BitVec.ofNat 32 c.val) = BitVec.ofNat 32 (o + c.val) := by
    simp only [IntOp.addi, BitVec.ofNat_add]
  have := qi.isLt; have := r.isLt; have := c.isLt
  rw [h1, h2, toInt_small _ (by omega), toInt_small _ (by omega)]
  omega

theorem lhs_qk_0 (i : S256x256.Idx) (q : dot_S256x64_S256x64_S256x256_1_1_0_0_n_n.contr.Idx) :
    (dot_S256x64_S256x64_S256x256_1_1_0_0_n_n.lhsIdx i q 0).val = (i 0).val := by
  unfold DotDims.lhsIdx
  rw [dif_neg (show ¬(0 : Fin S256x64.rank) ∈ dot_S256x64_S256x64_S256x256_1_1_0_0_n_n.lhsBatch by decide), dif_pos (show (0 : Fin S256x64.rank) ∈ dot_S256x64_S256x64_S256x256_1_1_0_0_n_n.lhsNonContracting by decide)]
  rfl
theorem lhs_qk_1 (i : S256x256.Idx) (q : dot_S256x64_S256x64_S256x256_1_1_0_0_n_n.contr.Idx) :
    (dot_S256x64_S256x64_S256x256_1_1_0_0_n_n.lhsIdx i q 1).val = (q ⟨0, by decide⟩).val :=
  dot_S256x64_S256x64_S256x256_1_1_0_0_n_n.lhsIdx_val_of_single rfl i q
theorem rhs_qk_0 (i : S256x256.Idx) (q : dot_S256x64_S256x64_S256x256_1_1_0_0_n_n.contr.Idx) :
    (dot_S256x64_S256x64_S256x256_1_1_0_0_n_n.rhsIdx i q 0).val = (i 1).val := by
  unfold DotDims.rhsIdx
  rw [dif_neg (show ¬(0 : Fin S256x64.rank) ∈ dot_S256x64_S256x64_S256x256_1_1_0_0_n_n.rhsBatch by decide), dif_pos (show (0 : Fin S256x64.rank) ∈ dot_S256x64_S256x64_S256x256_1_1_0_0_n_n.rhsNonContracting by decide)]
  rfl
theorem rhs_qk_1 (i : S256x256.Idx) (q : dot_S256x64_S256x64_S256x256_1_1_0_0_n_n.contr.Idx) :
    (dot_S256x64_S256x64_S256x256_1_1_0_0_n_n.rhsIdx i q 1).val = (q ⟨0, by decide⟩).val :=
  dot_S256x64_S256x64_S256x256_1_1_0_0_n_n.rhsIdx_val_of_single rfl i q

/-- The query-key product at (r, c) as a sum over the 64 features. -/
theorem qk_apply {φ₁ φ₂ : FTy} (x : FVec Ideal S256x64 φ₁) (y : FVec Ideal S256x64 φ₂) (r c : Fin 256) :
    matmul dot_S256x64_S256x64_S256x256_1_1_0_0_n_n none x y (constant S256x256 .f32 0x00000000#32) (ix2 r c)
      = ∑ h : Fin 64, x (ix2 r h) * y (ix2 c h) := by
  simp only [matmul]
  rw [Ideal.matmul_constant_zero_apply, ← Equiv.sum_comp (ValueIdx.contrEquiv1 dot_S256x64_S256x64_S256x256_1_1_0_0_n_n 64 rfl rfl).symm]
  refine Finset.sum_congr rfl fun k _ => ?_
  have hk := ValueIdx.contrEquiv1_symm_val dot_S256x64_S256x64_S256x256_1_1_0_0_n_n 64 rfl rfl k
  have el : dot_S256x64_S256x64_S256x256_1_1_0_0_n_n.lhsIdx (ix2 r c) ((ValueIdx.contrEquiv1 dot_S256x64_S256x64_S256x256_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S256x64_S256x64_S256x256_1_1_0_0_n_n.rhsIdx (ix2 r c) ((ValueIdx.contrEquiv1 dot_S256x64_S256x64_S256x256_1_1_0_0_n_n 64 rfl rfl).symm k) = ix2 c k := funext fun a => Fin.ext (by
    match a with
    | ⟨0, _⟩ => exact rhs_qk_0 _ _
    | ⟨1, _⟩ => exact (rhs_qk_1 _ _).trans hk)
  rw [el, er]

theorem lhs_pv_0 (i : S256x64.Idx) (q : dot_S256x256_S256x64_S256x64_1_0_0_1_n_n.contr.Idx) :
    (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
theorem lhs_pv_1 (i : S256x64.Idx) (q : dot_S256x256_S256x64_S256x64_1_0_0_1_n_n.contr.Idx) :
    (dot_S256x256_S256x64_S256x64_1_0_0_1_n_n.lhsIdx i q 1).val = (q ⟨0, by decide⟩).val :=
  dot_S256x256_S256x64_S256x64_1_0_0_1_n_n.lhsIdx_val_of_single rfl i q
theorem rhs_pv_0 (i : S256x64.Idx) (q : dot_S256x256_S256x64_S256x64_1_0_0_1_n_n.contr.Idx) :
    (dot_S256x256_S256x64_S256x64_1_0_0_1_n_n.rhsIdx i q 0).val = (q ⟨0, by decide⟩).val :=
  dot_S256x256_S256x64_S256x64_1_0_0_1_n_n.rhsIdx_val_of_single rfl i q
theorem rhs_pv_1 (i : S256x64.Idx) (q : dot_S256x256_S256x64_S256x64_1_0_0_1_n_n.contr.Idx) :
    (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl

/-- The weights-values product at (r, h) as a sum over the 256 columns. -/
theorem pv_apply {φ₁ φ₂ : FTy} (p : FVec Ideal S256x256 φ₁) (v : FVec Ideal S256x64 φ₂) (r : Fin 256) (h : Fin 64) :
    matmul dot_S256x256_S256x64_S256x64_1_0_0_1_n_n none p v (constant S256x64 .f32 0x00000000#32) (ix2 r h)
      = ∑ c : Fin 256, p (ix2 r c) * v (ix2 c h) := by
  simp only [matmul]
  rw [Ideal.matmul_constant_zero_apply, ← Equiv.sum_comp (ValueIdx.contrEquiv1 dot_S256x256_S256x64_S256x64_1_0_0_1_n_n 256 rfl rfl).symm]
  refine Finset.sum_congr rfl fun k _ => ?_
  have hk := ValueIdx.contrEquiv1_symm_val dot_S256x256_S256x64_S256x64_1_0_0_1_n_n 256 rfl rfl k
  have el : dot_S256x256_S256x64_S256x64_1_0_0_1_n_n.lhsIdx (ix2 r h) ((ValueIdx.contrEquiv1 dot_S256x256_S256x64_S256x64_1_0_0_1_n_n 256 rfl rfl).symm k) = ix2 r k := funext fun a => Fin.ext (by
    match a with
    | ⟨0, _⟩ => exact lhs_pv_0 _ _
    | ⟨1, _⟩ => exact (lhs_pv_1 _ _).trans hk)
  have er : dot_S256x256_S256x64_S256x64_1_0_0_1_n_n.rhsIdx (ix2 r h) ((ValueIdx.contrEquiv1 dot_S256x256_S256x64_S256x64_1_0_0_1_n_n 256 rfl rfl).symm k) = ix2 k h := funext fun a => Fin.ext (by
    match a with
    | ⟨0, _⟩ => exact (rhs_pv_0 _ _).trans hk
    | ⟨1, _⟩ => exact rhs_pv_1 _ _)
  rw [el, er]

theorem colCast_apply {α : Type} (v : S256.Idx → α) (h : S256.ShapeCasts S256x1) (r : Fin 256) (z : Fin 1) :
    shapeCast S256x1 v h (ix2 r z) = v (ix1 r) :=
  shapeCast_apply v h _ _ (by
    have hz : z.val = 0 := by omega
    rw [Shape.rowMajor_val_one, Shape.rowMajor_val_two]
    show r.val = r.val * 1 + z.val
    omega)

theorem bcastCol256_apply {α : Type} (x : S256x1.Idx → α) (h : S256x1.Broadcasts S256x256) (r c : Fin 256) :
    broadcastTo S256x256 x h (ix2 r c) = x (ix2 r (0 : Fin 1)) := by
  refine broadcastTo_apply x h (ix2 r c) (ix2 r (0 : Fin 1)) fun ax => ?_
  match ax with
  | ⟨0, _⟩ => rfl
  | ⟨1, _⟩ => rfl

theorem bcastCol64_apply {α : Type} (x : S256x1.Idx → α) (h : S256x1.Broadcasts S256x64) (r : Fin 256) (c : Fin 64) :
    broadcastTo S256x64 x h (ix2 r c) = x (ix2 r (0 : Fin 1)) := by
  refine broadcastTo_apply x h (ix2 r c) (ix2 r (0 : Fin 1)) fun ax => ?_
  match ax with
  | ⟨0, _⟩ => rfl
  | ⟨1, _⟩ => rfl

theorem iotaRow_apply (h : S256x256.Iotas .tc 32 [0]) (r c : Fin 256) :
    iota .tc S256x256 32 [0] h (ix2 r c) = BitVec.ofNat 32 r.val :=
  iota_single_apply .tc S256x256 32 0 h (ix2 r c)
theorem iotaCol_apply (h : S256x256.Iotas .tc 32 [1]) (r c : Fin 256) :
    iota .tc S256x256 32 [1] h (ix2 r c) = BitVec.ofNat 32 c.val :=
  iota_single_apply .tc S256x256 32 1 h (ix2 r c)

theorem lift_row (h : S256x256.Reduces [1] S256) (r c : Fin 256) : h.lift (ix1 r) c = ix2 r c :=
  funext fun a => Fin.ext (by match a with | ⟨0, _⟩ => rfl | ⟨1, _⟩ => rfl)

theorem rowMax_apply (X : FVec Ideal S256x256 .f32) (h : S256x256.Reduces [1] S256) (hφ : FKind.Formats .f32)
    (hacc : (0xFF800000#32 : BitVec 32) = FKind.maximumf.neutral .f32 hφ) (r : Fin 256) :
    multiReduction .maximumf [1] S256 X 0xFF800000#32 h hφ hacc (ix1 r) = Finset.univ.sup fun c : Fin 256 => X (ix2 r c) := by
  refine (Ideal.multiReduction_maximumf_single X _ h hφ hacc (ix1 r)).trans ?_
  rw [neg_inf_eq]
  show Finset.univ.sup (fun c : Fin 256 => X (h.lift (ix1 r) c)) = _
  exact Finset.sup_congr rfl fun c _ => congrArg X (lift_row h r c)

theorem rowSum_apply (X : FVec Ideal S256x256 .f32) (h : S256x256.Reduces [1] S256) (hφ : FKind.Formats .f32)
    (hacc : (0x00000000#32 : BitVec 32) = FKind.add.neutral .f32 hφ) (r : Fin 256) :
    multiReduction .add [1] S256 X 0x00000000#32 h hφ hacc (ix1 r) = ∑ c : Fin 256, X (ix2 r c) := by
  refine (Ideal.multiReduction_add_single X _ h hφ hacc (ix1 r)).trans ?_
  show ∑ c : Fin 256, X (h.lift (ix1 r) c) = _
  exact Finset.sum_congr rfl fun c _ => congrArg X (lift_row h r c)

theorem cmpi_at {s : Shape} {w : ℕ} (p : CmpIPredicate) (x y : IVec s w) (i : s.Idx) :
    cmpi p x y i = IntOp.cmpi p (x i) (y i) := rfl
theorem addi_at {s : Shape} {w : ℕ} (x y : IVec s w) (i : s.Idx) : addi x y i = IntOp.addi (x i) (y i) := rfl
theorem exp_at {s : Shape} {φ : FTy} (a : FVec Ideal s φ) (i : s.Idx) : exp a i = Ideal.exp (a i) := rfl

def mat (x : S256x64.Idx → EReal) : Fin 256 → Fin 64 → EReal := fun r h => x (ix2 r h)

def col (x : S256x1.Idx → EReal) : Fin 256 → EReal := fun r => x (ix2 r 0)

/-- The masked scaled scores of a query tile against a key tile, over the tiles' own rows. -/
def tscore (qi ki : Fin 8) (q kt : Fin 256 → Fin 64 → EReal) : Fin 256 → Fin 256 → EReal := fun r c =>
  if 256 * ki.val + c.val ≤ 256 * qi.val + r.val then (∑ h : Fin 64, q r h * kt c h) * Cert.Attn.scale else ⊥

def stOf (mo lo : S256x1.Idx → EReal) (ao : S256x64.Idx → EReal) : Cert.Attn.St := ⟨col mo, col lo, mat ao⟩

/-- The tile's masked scaled scores, with the column offset word `o` a parameter. -/
def scoreV (o arg1 : BitVec 32) (q : FVec Ideal S256x64 .bf16) (kt : Vec Ideal S256x64 .f32) : FVec Ideal S256x256 .f32 :=
  select (cmpi .sge (addi (broadcast S256x256 (Scalar.muli arg1 256#32)) (iota .tc S256x256 32 [0] iota_S256x256_d0_w32))
      (addi (broadcast S256x256 o) (iota .tc S256x256 32 [1] iota_S256x256_d1_w32)))
    (mulf (matmul dot_S256x64_S256x64_S256x256_1_1_0_0_n_n none q (truncf .bf16 kt bitsLt_bf16_f32)
        (constant S256x256 .f32 0x00000000#32))
      (broadcast S256x256 (Scalar.ofBits .f32 0x3D000000#32)))
    (broadcast S256x256 (Named.named κ "neg_big" 0xFF333332#32))

def maxV (o arg1 : BitVec 32) (q : FVec Ideal S256x64 .bf16) (kt : Vec Ideal S256x64 .f32) (mo : Vec Ideal S256x1 .f32) :
    FVec Ideal S256x1 .f32 :=
  maximumf mo (shapeCast S256x1 (multiReduction (F := Ideal) .maximumf [1] S256 (scoreV o arg1 q kt) 0xFF800000#32
    reduces_S256x256_S256 (.inl rfl) rfl) shapeCasts_S256_S256x1)

def alphaV (o arg1 : BitVec 32) (q : FVec Ideal S256x64 .bf16) (kt : Vec Ideal S256x64 .f32) (mo mo' : Vec Ideal S256x1 .f32) :
    FVec Ideal S256x1 .f32 :=
  exp (subf mo' (maxV o arg1 q kt mo))

def expV (o arg1 : BitVec 32) (q : FVec Ideal S256x64 .bf16) (kt : Vec Ideal S256x64 .f32) (mo : Vec Ideal S256x1 .f32) :
    FVec Ideal S256x256 .f32 :=
  exp (subf (scoreV o arg1 q kt) (broadcastTo S256x256 (maxV o arg1 q kt mo) broadcasts_S256x1_S256x256))

def sumV (o arg1 : BitVec 32) (q : FVec Ideal S256x64 .bf16) (kt : Vec Ideal S256x64 .f32) (mo mo' lo : Vec Ideal S256x1 .f32) :
    FVec Ideal S256x1 .f32 :=
  shapeCast S256x1 (addf (mulf (alphaV o arg1 q kt mo mo') lo)
    (shapeCast S256x1 (multiReduction (F := Ideal) .add [1] S256 (expV o arg1 q kt mo) 0x00000000#32
      reduces_S256x256_S256 (.inl rfl) rfl) shapeCasts_S256_S256x1)) shapeCasts_S256x1_S256x1

def accScaledV (o arg1 : BitVec 32) (q : FVec Ideal S256x64 .bf16) (kt : Vec Ideal S256x64 .f32) (mo mo' : Vec Ideal S256x1 .f32)
    (ao : Vec Ideal S256x64 .f32) : FVec Ideal S256x64 .f32 :=
  mulf (broadcastTo S256x64 (alphaV o arg1 q kt mo mo') broadcasts_S256x1_S256x64) ao

def accV (vt' : FVec Ideal S256x64 .bf16) (p : FVec Ideal S256x256 .f32) (a : FVec Ideal S256x64 .f32) : FVec Ideal S256x64 .f32 :=
  shapeCast S256x64 (addf a (matmul dot_S256x256_S256x64_S256x64_1_0_0_1_n_n none (truncf .bf16 p bitsLt_bf16_f32) vt'
    (constant S256x64 .f32 0x00000000#32))) shapeCasts_S256x64_S256x64

def mStoreV (m : FVec Ideal S256x1 .f32) : FVec Ideal S256x1 .f32 := shapeCast S256x1 m shapeCasts_S256x1_S256x1
def vtV (vt : Vec Ideal S256x64 .f32) : FVec Ideal S256x64 .bf16 := truncf .bf16 vt bitsLt_bf16_f32

theorem scoreV_apply (qi : Fin 8) (o : ℕ) (ho : o ≤ 1792) (q : FVec Ideal S256x64 .bf16) (kt : Vec Ideal S256x64 .f32)
    (r c : Fin 256) :
    scoreV (BitVec.ofNat 32 o) (BitVec.ofNat 32 qi.val) q kt (ix2 r c)
      = if o + c.val ≤ 256 * qi.val + r.val then (∑ h : Fin 64, q (ix2 r h) * kt (ix2 c h)) * Cert.Attn.scale else ⊥ := by
  unfold scoreV
  rw [select_apply, cmpi_at, addi_at, addi_at, iotaRow_apply, iotaCol_apply, mulf_apply, qk_apply]
  simp only [broadcast_apply]
  rw [neg_big_eq, scale_eq]
  by_cases hc : o + c.val ≤ 256 * qi.val + r.val
  · rw [if_pos hc, (mask_word qi o ho r c).mpr hc, select_one]
    rfl
  · rw [if_neg hc, eq_zero_of_ne_one (fun h => hc ((mask_word qi o ho r c).mp h)), select_zero]

/-- At offset 256·ki they are the specification's tile scores. -/
theorem scoreV_eq_tscore (qi ki : Fin 8) (q : FVec Ideal S256x64 .bf16) (kt : Vec Ideal S256x64 .f32) (r c : Fin 256) :
    scoreV (BitVec.ofNat 32 (256 * ki.val)) (BitVec.ofNat 32 qi.val) q kt (ix2 r c) = tscore qi ki (mat q) (mat kt) r c :=
  scoreV_apply qi (256 * ki.val) (by have := ki.isLt; omega) q kt r c

theorem maxV_apply (o arg1 : BitVec 32) (q : FVec Ideal S256x64 .bf16) (kt : Vec Ideal S256x64 .f32) (mo : Vec Ideal S256x1 .f32)
    (r : Fin 256) (z : Fin 1) :
    maxV o arg1 q kt mo (ix2 r z) = max (mo (ix2 r z)) (Finset.univ.sup fun c : Fin 256 => scoreV o arg1 q kt (ix2 r c)) := by
  unfold maxV
  rw [maximumf_apply, colCast_apply]
  exact congrArg (max _) (rowMax_apply _ _ _ _ r)

theorem alphaV_apply (o arg1 : BitVec 32) (q : FVec Ideal S256x64 .bf16) (kt : Vec Ideal S256x64 .f32) (mo mo' : Vec Ideal S256x1 .f32)
    (r : Fin 256) (z : Fin 1) :
    alphaV o arg1 q kt mo mo' (ix2 r z) = Ideal.exp (mo' (ix2 r z) - maxV o arg1 q kt mo (ix2 r z)) := rfl

theorem expV_apply (o arg1 : BitVec 32) (q : FVec Ideal S256x64 .bf16) (kt : Vec Ideal S256x64 .f32) (mo : Vec Ideal S256x1 .f32)
    (r c : Fin 256) :
    expV o arg1 q kt mo (ix2 r c) = Ideal.exp (scoreV o arg1 q kt (ix2 r c) - maxV o arg1 q kt mo (ix2 r (0 : Fin 1))) := by
  unfold expV
  rw [exp_at, subf_apply, bcastCol256_apply]

theorem sumV_apply (o arg1 : BitVec 32) (q : FVec Ideal S256x64 .bf16) (kt : Vec Ideal S256x64 .f32) (mo mo' lo : Vec Ideal S256x1 .f32)
    (r : Fin 256) (z : Fin 1) :
    sumV o arg1 q kt mo mo' lo (ix2 r z)
      = alphaV o arg1 q kt mo mo' (ix2 r z) * lo (ix2 r z) + ∑ c : Fin 256, expV o arg1 q kt mo (ix2 r c) := by
  unfold sumV
  rw [shapeCast_self, addf_apply, mulf_apply, colCast_apply]
  exact congrArg (_ + ·) (rowSum_apply _ _ _ _ r)

theorem accV_apply (o arg1 : BitVec 32) (q : FVec Ideal S256x64 .bf16) (kt vt : Vec Ideal S256x64 .f32) (mo mo' : Vec Ideal S256x1 .f32)
    (ao : Vec Ideal S256x64 .f32) (r : Fin 256) (h : Fin 64) :
    accV (vtV vt) (expV o arg1 q kt mo) (accScaledV o arg1 q kt mo mo' ao) (ix2 r h)
      = alphaV o arg1 q kt mo mo' (ix2 r (0 : Fin 1)) * ao (ix2 r h) + ∑ c : Fin 256, expV o arg1 q kt mo (ix2 r c) * vt (ix2 c h) := by
  unfold accV accScaledV
  rw [shapeCast_self, addf_apply, mulf_apply, bcastCol64_apply, pv_apply]
  rfl

variable (qi ki : Fin 8) (q : FVec Ideal S256x64 .bf16) (kt vt : Vec Ideal S256x64 .f32) (mo lo : Vec Ideal S256x1 .f32)
  (ao : Vec Ideal S256x64 .f32)

theorem maxV_eq (r : Fin 256) :
    maxV (BitVec.ofNat 32 (256 * ki.val)) (BitVec.ofNat 32 qi.val) q kt mo (ix2 r (0 : Fin 1))
      = max (col mo r) (Finset.univ.sup (tscore qi ki (mat q) (mat kt) r)) := by
  rw [maxV_apply]
  exact congrArg (max _) (Finset.sup_congr rfl fun c _ => scoreV_eq_tscore qi ki q kt r c)

/-- The stored maximum, sum and accumulator are the step's. -/
theorem tile_m (r : Fin 256) :
    mStoreV (maxV (BitVec.ofNat 32 (256 * ki.val)) (BitVec.ofNat 32 qi.val) q kt mo) (ix2 r 0)
      = (Cert.Attn.step (tscore qi ki (mat q) (mat kt)) (mat vt) (stOf mo lo ao)).m r := by
  unfold mStoreV
  rw [shapeCast_self, maxV_eq]
  rfl

theorem tile_l (r : Fin 256) :
    sumV (BitVec.ofNat 32 (256 * ki.val)) (BitVec.ofNat 32 qi.val) q kt mo mo lo (ix2 r 0)
      = (Cert.Attn.step (tscore qi ki (mat q) (mat kt)) (mat vt) (stOf mo lo ao)).l r := by
  rw [sumV_apply, alphaV_apply, maxV_eq]
  have e : ∀ c : Fin 256, expV (BitVec.ofNat 32 (256 * ki.val)) (BitVec.ofNat 32 qi.val) q kt mo (ix2 r c)
      = Ideal.exp (tscore qi ki (mat q) (mat kt) r c - max (col mo r) (Finset.univ.sup (tscore qi ki (mat q) (mat kt) r))) :=
    fun c => by rw [expV_apply, scoreV_eq_tscore, maxV_eq]
  rw [Finset.sum_congr rfl fun c _ => e c]
  rfl

theorem tile_acc (r : Fin 256) (h : Fin 64) :
    accV (vtV vt) (expV (BitVec.ofNat 32 (256 * ki.val)) (BitVec.ofNat 32 qi.val) q kt mo)
        (accScaledV (BitVec.ofNat 32 (256 * ki.val)) (BitVec.ofNat 32 qi.val) q kt mo mo ao) (ix2 r h)
      = (Cert.Attn.step (tscore qi ki (mat q) (mat kt)) (mat vt) (stOf mo lo ao)).acc r h := by
  rw [accV_apply, alphaV_apply, maxV_eq]
  have e : ∀ c : Fin 256, expV (BitVec.ofNat 32 (256 * ki.val)) (BitVec.ofNat 32 qi.val) q kt mo (ix2 r c)
      = Ideal.exp (tscore qi ki (mat q) (mat kt) r c - max (col mo r) (Finset.univ.sup (tscore qi ki (mat q) (mat kt) r))) :=
    fun c => by rw [expV_apply, scoreV_eq_tscore, maxV_eq]
  rw [Finset.sum_congr rfl fun c _ => by rw [e c]]
  rfl

theorem tile0_m (r : Fin 256) :
    k0_pay77 (F := Ideal) (k0_pay14 (BitVec.ofNat 32 qi.val) q kt mo) (ix2 r 0)
      = (Cert.Attn.step (tscore qi 0 (mat q) (mat kt)) (mat vt) (stOf mo lo ao)).m r :=
  tile_m qi 0 q kt vt mo lo ao r

theorem tile0_l (r : Fin 256) :
    k0_pay17 (F := Ideal) (BitVec.ofNat 32 qi.val) q kt mo mo lo (ix2 r 0)
      = (Cert.Attn.step (tscore qi 0 (mat q) (mat kt)) (mat vt) (stOf mo lo ao)).l r :=
  tile_l qi 0 q kt vt mo lo ao r

theorem tile0_acc (r : Fin 256) (h : Fin 64) :
    k0_pay76 (F := Ideal) (k0_pay12 vt) (k0_pay16 (BitVec.ofNat 32 qi.val) q kt mo)
        (k0_pay18 (BitVec.ofNat 32 qi.val) q kt mo mo ao) (ix2 r h)
      = (Cert.Attn.step (tscore qi 0 (mat q) (mat kt)) (mat vt) (stOf mo lo ao)).acc r h :=
  tile_acc qi 0 q kt vt mo lo ao r h

theorem tile1_m (r : Fin 256) :
    k0_pay79 (F := Ideal) (k0_pay21 (BitVec.ofNat 32 qi.val) q kt mo) (ix2 r 0)
      = (Cert.Attn.step (tscore qi 1 (mat q) (mat kt)) (mat vt) (stOf mo lo ao)).m r :=
  tile_m qi 1 q kt vt mo lo ao r

theorem tile1_l (r : Fin 256) :
    k0_pay24 (F := Ideal) (BitVec.ofNat 32 qi.val) q kt mo mo lo (ix2 r 0)
      = (Cert.Attn.step (tscore qi 1 (mat q) (mat kt)) (mat vt) (stOf mo lo ao)).l r :=
  tile_l qi 1 q kt vt mo lo ao r

theorem tile1_acc (r : Fin 256) (h : Fin 64) :
    k0_pay78 (F := Ideal) (k0_pay19 vt) (k0_pay23 (BitVec.ofNat 32 qi.val) q kt mo)
        (k0_pay25 (BitVec.ofNat 32 qi.val) q kt mo mo ao) (ix2 r h)
      = (Cert.Attn.step (tscore qi 1 (mat q) (mat kt)) (mat vt) (stOf mo lo ao)).acc r h :=
  tile_acc qi 1 q kt vt mo lo ao r h

theorem tile2_m (r : Fin 256) :
    k0_pay81 (F := Ideal) (k0_pay28 (BitVec.ofNat 32 qi.val) q kt mo) (ix2 r 0)
      = (Cert.Attn.step (tscore qi 2 (mat q) (mat kt)) (mat vt) (stOf mo lo ao)).m r :=
  tile_m qi 2 q kt vt mo lo ao r

theorem tile2_l (r : Fin 256) :
    k0_pay31 (F := Ideal) (BitVec.ofNat 32 qi.val) q kt mo mo lo (ix2 r 0)
      = (Cert.Attn.step (tscore qi 2 (mat q) (mat kt)) (mat vt) (stOf mo lo ao)).l r :=
  tile_l qi 2 q kt vt mo lo ao r

theorem tile2_acc (r : Fin 256) (h : Fin 64) :
    k0_pay80 (F := Ideal) (k0_pay26 vt) (k0_pay30 (BitVec.ofNat 32 qi.val) q kt mo)
        (k0_pay32 (BitVec.ofNat 32 qi.val) q kt mo mo ao) (ix2 r h)
      = (Cert.Attn.step (tscore qi 2 (mat q) (mat kt)) (mat vt) (stOf mo lo ao)).acc r h :=
  tile_acc qi 2 q kt vt mo lo ao r h

theorem tile3_m (r : Fin 256) :
    k0_pay2 (F := Ideal) (k0_pay35 (BitVec.ofNat 32 qi.val) q kt mo) (ix2 r 0)
      = (Cert.Attn.step (tscore qi 3 (mat q) (mat kt)) (mat vt) (stOf mo lo ao)).m r :=
  tile_m qi 3 q kt vt mo lo ao r

theorem tile3_l (r : Fin 256) :
    k0_pay38 (F := Ideal) (BitVec.ofNat 32 qi.val) q kt mo mo lo (ix2 r 0)
      = (Cert.Attn.step (tscore qi 3 (mat q) (mat kt)) (mat vt) (stOf mo lo ao)).l r :=
  tile_l qi 3 q kt vt mo lo ao r

theorem tile3_acc (r : Fin 256) (h : Fin 64) :
    k0_pay1 (F := Ideal) (k0_pay33 vt) (k0_pay37 (BitVec.ofNat 32 qi.val) q kt mo)
        (k0_pay39 (BitVec.ofNat 32 qi.val) q kt mo mo ao) (ix2 r h)
      = (Cert.Attn.step (tscore qi 3 (mat q) (mat kt)) (mat vt) (stOf mo lo ao)).acc r h :=
  tile_acc qi 3 q kt vt mo lo ao r h

theorem tile4_m (r : Fin 256) :
    k0_pay4 (F := Ideal) (k0_pay42 (BitVec.ofNat 32 qi.val) q kt mo) (ix2 r 0)
      = (Cert.Attn.step (tscore qi 4 (mat q) (mat kt)) (mat vt) (stOf mo lo ao)).m r :=
  tile_m qi 4 q kt vt mo lo ao r

theorem tile4_l (r : Fin 256) :
    k0_pay45 (F := Ideal) (BitVec.ofNat 32 qi.val) q kt mo mo lo (ix2 r 0)
      = (Cert.Attn.step (tscore qi 4 (mat q) (mat kt)) (mat vt) (stOf mo lo ao)).l r :=
  tile_l qi 4 q kt vt mo lo ao r

theorem tile4_acc (r : Fin 256) (h : Fin 64) :
    k0_pay3 (F := Ideal) (k0_pay40 vt) (k0_pay44 (BitVec.ofNat 32 qi.val) q kt mo)
        (k0_pay46 (BitVec.ofNat 32 qi.val) q kt mo mo ao) (ix2 r h)
      = (Cert.Attn.step (tscore qi 4 (mat q) (mat kt)) (mat vt) (stOf mo lo ao)).acc r h :=
  tile_acc qi 4 q kt vt mo lo ao r h

theorem tile5_m (r : Fin 256) :
    k0_pay6 (F := Ideal) (k0_pay49 (BitVec.ofNat 32 qi.val) q kt mo) (ix2 r 0)
      = (Cert.Attn.step (tscore qi 5 (mat q) (mat kt)) (mat vt) (stOf mo lo ao)).m r :=
  tile_m qi 5 q kt vt mo lo ao r

theorem tile5_l (r : Fin 256) :
    k0_pay52 (F := Ideal) (BitVec.ofNat 32 qi.val) q kt mo mo lo (ix2 r 0)
      = (Cert.Attn.step (tscore qi 5 (mat q) (mat kt)) (mat vt) (stOf mo lo ao)).l r :=
  tile_l qi 5 q kt vt mo lo ao r

theorem tile5_acc (r : Fin 256) (h : Fin 64) :
    k0_pay5 (F := Ideal) (k0_pay47 vt) (k0_pay51 (BitVec.ofNat 32 qi.val) q kt mo)
        (k0_pay53 (BitVec.ofNat 32 qi.val) q kt mo mo ao) (ix2 r h)
      = (Cert.Attn.step (tscore qi 5 (mat q) (mat kt)) (mat vt) (stOf mo lo ao)).acc r h :=
  tile_acc qi 5 q kt vt mo lo ao r h

theorem tile6_m (r : Fin 256) :
    k0_pay8 (F := Ideal) (k0_pay56 (BitVec.ofNat 32 qi.val) q kt mo) (ix2 r 0)
      = (Cert.Attn.step (tscore qi 6 (mat q) (mat kt)) (mat vt) (stOf mo lo ao)).m r :=
  tile_m qi 6 q kt vt mo lo ao r

theorem tile6_l (r : Fin 256) :
    k0_pay59 (F := Ideal) (BitVec.ofNat 32 qi.val) q kt mo mo lo (ix2 r 0)
      = (Cert.Attn.step (tscore qi 6 (mat q) (mat kt)) (mat vt) (stOf mo lo ao)).l r :=
  tile_l qi 6 q kt vt mo lo ao r

theorem tile6_acc (r : Fin 256) (h : Fin 64) :
    k0_pay7 (F := Ideal) (k0_pay54 vt) (k0_pay58 (BitVec.ofNat 32 qi.val) q kt mo)
        (k0_pay60 (BitVec.ofNat 32 qi.val) q kt mo mo ao) (ix2 r h)
      = (Cert.Attn.step (tscore qi 6 (mat q) (mat kt)) (mat vt) (stOf mo lo ao)).acc r h :=
  tile_acc qi 6 q kt vt mo lo ao r h

theorem tile7_m (r : Fin 256) :
    k0_pay10 (F := Ideal) (k0_pay63 (BitVec.ofNat 32 qi.val) q kt mo) (ix2 r 0)
      = (Cert.Attn.step (tscore qi 7 (mat q) (mat kt)) (mat vt) (stOf mo lo ao)).m r :=
  tile_m qi 7 q kt vt mo lo ao r

theorem tile7_l (r : Fin 256) :
    k0_pay66 (F := Ideal) (BitVec.ofNat 32 qi.val) q kt mo mo lo (ix2 r 0)
      = (Cert.Attn.step (tscore qi 7 (mat q) (mat kt)) (mat vt) (stOf mo lo ao)).l r :=
  tile_l qi 7 q kt vt mo lo ao r

theorem tile7_acc (r : Fin 256) (h : Fin 64) :
    k0_pay9 (F := Ideal) (k0_pay61 vt) (k0_pay65 (BitVec.ofNat 32 qi.val) q kt mo)
        (k0_pay67 (BitVec.ofNat 32 qi.val) q kt mo mo ao) (ix2 r h)
      = (Cert.Attn.step (tscore qi 7 (mat q) (mat kt)) (mat vt) (stOf mo lo ao)).acc r h :=
  tile_acc qi 7 q kt vt mo lo ao r h

end Cert.KernelIdeal.PayTile

end
-- ==== Proof.KI.PayMisc.lean ====
/-
  The body's arithmetic outside the key-tile walk, at an index: the projection as a sum over features and its three
  column bands, the reset values, the final quotient, and the concatenated weights.
-/
import proofs.«431441_j5385888989914_3_alg».proof.Proof.Gen.KernelIdeal.Skeleton
import proofs.«431441_j5385888989914_3_alg».proof.Proof.Spec
import Idealize.ShloMosaic.Lib.ValueIdx
import Idealize.ShloMosaic.Lib.Pipeline.Value
import Idealize.ShloMosaic.PureOps.Ideal.Laws

noncomputable section

namespace Cert.KernelIdeal.PayMisc

open Cert.KernelIdeal Cert.KernelIdeal.Gen Idealize.ShloMosaic Idealize.ShloMosaic.ValueIdx

theorem lhs_proj_0 (i : S2048x192.Idx) (q : dot_S2048x1024_S1024x192_S2048x192_1_0_0_1_n_n.contr.Idx) :
    (dot_S2048x1024_S1024x192_S2048x192_1_0_0_1_n_n.lhsIdx i q 0).val = (i 0).val := by
  unfold DotDims.lhsIdx
  rw [dif_neg (show ¬(0 : Fin S2048x1024.rank) ∈ dot_S2048x1024_S1024x192_S2048x192_1_0_0_1_n_n.lhsBatch by decide), dif_pos (show (0 : Fin S2048x1024.rank) ∈ dot_S2048x1024_S1024x192_S2048x192_1_0_0_1_n_n.lhsNonContracting by decide)]
  rfl
theorem lhs_proj_1 (i : S2048x192.Idx) (q : dot_S2048x1024_S1024x192_S2048x192_1_0_0_1_n_n.contr.Idx) :
    (dot_S2048x1024_S1024x192_S2048x192_1_0_0_1_n_n.lhsIdx i q 1).val = (q ⟨0, by decide⟩).val :=
  dot_S2048x1024_S1024x192_S2048x192_1_0_0_1_n_n.lhsIdx_val_of_single rfl i q
theorem rhs_proj_0 (i : S2048x192.Idx) (q : dot_S2048x1024_S1024x192_S2048x192_1_0_0_1_n_n.contr.Idx) :
    (dot_S2048x1024_S1024x192_S2048x192_1_0_0_1_n_n.rhsIdx i q 0).val = (q ⟨0, by decide⟩).val :=
  dot_S2048x1024_S1024x192_S2048x192_1_0_0_1_n_n.rhsIdx_val_of_single rfl i q
theorem rhs_proj_1 (i : S2048x192.Idx) (q : dot_S2048x1024_S1024x192_S2048x192_1_0_0_1_n_n.contr.Idx) :
    (dot_S2048x1024_S1024x192_S2048x192_1_0_0_1_n_n.rhsIdx i q 1).val = (i 1).val := by
  unfold DotDims.rhsIdx
  rw [dif_neg (show ¬(1 : Fin S1024x192.rank) ∈ dot_S2048x1024_S1024x192_S2048x192_1_0_0_1_n_n.rhsBatch by decide), dif_pos (show (1 : Fin S1024x192.rank) ∈ dot_S2048x1024_S1024x192_S2048x192_1_0_0_1_n_n.rhsNonContracting by decide)]
  rfl

theorem slab_apply (x0 : Vec Ideal S1x2048x1024 .f32) (t : Fin 2048) (c : Fin 1024) :
    shapeCast S2048x1024 x0 shapeCasts_S1x2048x1024_S2048x1024 (ix2 t c) = x0 (ix3 (0 : Fin 1) t c) :=
  shapeCast_apply x0 _ (ix2 t c) (ix3 (0 : Fin 1) t c) (by
    rw [Shape.rowMajor_val_three, Shape.rowMajor_val_two]
    show (0 * 2048 + t.val) * 1024 + c.val = t.val * 1024 + c.val
    omega)

/-- The slab-times-weights product at (t, j) as a sum over the 1024 features. -/
theorem proj_apply (x0 : Vec Ideal S1x2048x1024 .f32) (x1 : Vec Ideal S1024x192 .f32) (t : Fin 2048) (j : Fin 192) :
    k0_pay68 (F := Ideal) x0 x1 (ix2 t j) = ∑ c : Fin 1024, x0 (ix3 (0 : Fin 1) t c) * x1 (ix2 c j) := by
  unfold k0_pay68
  simp only [matmul]
  rw [Ideal.matmul_constant_zero_apply, ← Equiv.sum_comp (contrEquiv1 dot_S2048x1024_S1024x192_S2048x192_1_0_0_1_n_n 1024 rfl rfl).symm]
  refine Finset.sum_congr rfl fun k _ => ?_
  have hk := contrEquiv1_symm_val dot_S2048x1024_S1024x192_S2048x192_1_0_0_1_n_n 1024 rfl rfl k
  have el : dot_S2048x1024_S1024x192_S2048x192_1_0_0_1_n_n.lhsIdx (ix2 t j) ((contrEquiv1 dot_S2048x1024_S1024x192_S2048x192_1_0_0_1_n_n 1024 rfl rfl).symm k) = ix2 t k := funext fun a => Fin.ext (by
    match a with
    | ⟨0, _⟩ => exact lhs_proj_0 _ _
    | ⟨1, _⟩ => exact (lhs_proj_1 _ _).trans hk)
  have er : dot_S2048x1024_S1024x192_S2048x192_1_0_0_1_n_n.rhsIdx (ix2 t j) ((contrEquiv1 dot_S2048x1024_S1024x192_S2048x192_1_0_0_1_n_n 1024 rfl rfl).symm k) = ix2 k j := funext fun a => Fin.ext (by
    match a with
    | ⟨0, _⟩ => exact (rhs_proj_0 _ _).trans hk
    | ⟨1, _⟩ => exact rhs_proj_1 _ _)
  rw [el, er, truncf_apply, truncf_apply, shapeCast_self, slab_apply]

/-- A 64-column band of the product at (t, h). -/
theorem band_apply (off : ℕ) (hs : S2048x192.Slices ![0, off] S2048x64) (P : S2048x192.Idx → EReal) (t : Fin 2048)
    (h : Fin 64) (j : Fin 192) (hj : j.val = off + h.val) :
    extractStridedSlice S2048x64 ![0, off] P hs (ix2 t h) = P (ix2 t j) :=
  extractStridedSlice_apply ![0, off] P hs (ix2 t h) (ix2 t j) (fun a => match a with
    | ⟨0, _⟩ => (Nat.zero_add _).symm
    | ⟨1, _⟩ => hj)

theorem projQ (x0 : Vec Ideal S1x2048x1024 .f32) (x1 : Vec Ideal S1024x192 .f32) (t : Fin 2048) (h : Fin 64) :
    k0_pay69 (F := Ideal) x0 x1 (ix2 t h)
      = ∑ c : Fin 1024, x0 (ix3 (0 : Fin 1) t c) * x1 (ix2 c (⟨h.val, by omega⟩ : Fin 192)) := by
  unfold k0_pay69
  simp only [shapeCast_self]
  rw [band_apply 0 _ _ t h ⟨h.val, by omega⟩ (Nat.zero_add _).symm]
  exact proj_apply x0 x1 t _

theorem projK (x0 : Vec Ideal S1x2048x1024 .f32) (x1 : Vec Ideal S1024x192 .f32) (t : Fin 2048) (h : Fin 64) :
    k0_pay70 (F := Ideal) x0 x1 (ix2 t h)
      = ∑ c : Fin 1024, x0 (ix3 (0 : Fin 1) t c) * x1 (ix2 c (⟨64 + h.val, by omega⟩ : Fin 192)) := by
  unfold k0_pay70
  simp only [shapeCast_self]
  rw [band_apply 64 _ _ t h ⟨64 + h.val, by omega⟩ rfl]
  exact proj_apply x0 x1 t _

theorem projV (x0 : Vec Ideal S1x2048x1024 .f32) (x1 : Vec Ideal S1024x192 .f32) (t : Fin 2048) (h : Fin 64) :
    k0_pay71 (F := Ideal) x0 x1 (ix2 t h)
      = ∑ c : Fin 1024, x0 (ix3 (0 : Fin 1) t c) * x1 (ix2 c (⟨128 + h.val, by omega⟩ : Fin 192)) := by
  unfold k0_pay71
  simp only [shapeCast_self]
  rw [band_apply 128 _ _ t h ⟨128 + h.val, by omega⟩ rfl]
  exact proj_apply x0 x1 t _

/-- The named constant is −∞. -/
theorem neg_big_eq : Named.named (F := Ideal) κ "neg_big" (φ := .f32) 0xFF333332#32 = (⊥ : EReal) :=
  IdealRules.named_const.ideal_named_scalar _ _ _ _ rfl

theorem reset_m : k0_pay72 (F := Ideal) = fun _ => (⊥ : EReal) := by
  unfold k0_pay72
  simp only [shapeCast_self]
  funext i
  exact neg_big_eq

theorem reset_l : k0_pay73 (F := Ideal) = fun _ => (0 : EReal) := by
  unfold k0_pay73
  simp only [shapeCast_self]
  funext i
  exact Ideal.ofBits_zero_f32

theorem reset_acc : k0_pay74 (F := Ideal) = fun _ => (0 : EReal) := by
  unfold k0_pay74
  simp only [shapeCast_self]
  funext i
  exact Ideal.ofBits_zero_f32

theorem qtile_id (v : Vec Ideal S256x64 .f32) : k0_pay75 (F := Ideal) v = v := by
  unfold k0_pay75
  funext i
  exact truncf_apply v _ i

theorem lcol_apply (l : Vec Ideal S256x1 .f32) (r : Fin 256) (h : Fin 64) :
    broadcastTo S256x64 l broadcasts_S256x1_S256x64 (ix2 r h) = l (ix2 r (0 : Fin 1)) :=
  broadcastTo_apply l broadcasts_S256x1_S256x64 (ix2 r h) (ix2 r (0 : Fin 1)) (fun a => match a with
    | ⟨0, _⟩ => by
        show r.val = if (256 : ℕ) = 1 then 0 else r.val
        rw [if_neg (by decide)]
    | ⟨1, _⟩ => by
        show (0 : ℕ) = if (1 : ℕ) = 1 then 0 else h.val
        rw [if_pos rfl])

theorem block_apply (P : S256x64.Idx → EReal) (r : Fin 256) (h : Fin 64) :
    shapeCast S1x256x64 P shapeCasts_S256x64_S1x256x64 (ix3 (0 : Fin 1) r h) = P (ix2 r h) :=
  shapeCast_apply P shapeCasts_S256x64_S1x256x64 (ix3 (0 : Fin 1) r h) (ix2 r h) (by
    rw [Shape.rowMajor_val_three, Shape.rowMajor_val_two]
    show r.val * 64 + h.val = (0 * 256 + r.val) * 64 + h.val
    omega)

/-- The stored quotient at (r, h). -/
theorem out_apply (acc : Vec Ideal S256x64 .f32) (l : Vec Ideal S256x1 .f32) (r : Fin 256) (h : Fin 64) :
    k0_pay11 (F := Ideal) acc l (ix3 (0 : Fin 1) r h) = Ideal.div (acc (ix2 r h)) (l (ix2 r (0 : Fin 1))) := by
  unfold k0_pay11
  show shapeCast S1x256x64 (divf (F := Ideal) (φ := .f32) acc (broadcastTo S256x64 l broadcasts_S256x1_S256x64)) shapeCasts_S256x64_S1x256x64
    (ix3 (0 : Fin 1) r h) = _
  rw [block_apply, divf_apply, lcol_apply]

/-- The concatenated matrix at column j is the query, key or value weights at j, j − 64 or j − 128. -/
theorem wcat_apply (wq wk wv : S1024x64.Idx → EReal) (c : Fin 1024) (j : Fin 192) :
    concatenate S1024x192 1 [⟨S1024x64, wq⟩, ⟨S1024x64, wk⟩, ⟨S1024x64, wv⟩]
        concatenates_S1024x64_S1024x64_S1024x64_S1024x192_d1 (ix2 c j)
      = if h : j.val < 64 then wq (ix2 c (⟨j.val, h⟩ : Fin 64))
        else if h' : j.val < 128 then wk (ix2 c (⟨j.val - 64, by omega⟩ : Fin 64))
        else wv (ix2 c (⟨j.val - 128, by omega⟩ : Fin 64)) := by
  have hj := j.isLt
  by_cases h : j.val < 64
  · rw [dif_pos h]
    refine concatenate_apply_piece 1 _ _ (ix2 c j) 0 (by show (0 : ℕ) < 3; decide) S1024x64 wq rfl rfl 0 rfl
      (ix2 c (⟨j.val, h⟩ : Fin 64)) (fun b hb => ?_) ?_
    · match b with
      | ⟨0, _⟩ => rfl
      | ⟨1, _⟩ => exact absurd rfl hb
    · show 0 + j.val = j.val; omega
  · rw [dif_neg h]
    by_cases h' : j.val < 128
    · rw [dif_pos h']
      refine concatenate_apply_piece 1 _ _ (ix2 c j) 1 (by show (1 : ℕ) < 3; decide) S1024x64 wk rfl rfl 64 rfl
        (ix2 c (⟨j.val - 64, by omega⟩ : Fin 64)) (fun b hb => ?_) ?_
      · match b with
        | ⟨0, _⟩ => rfl
        | ⟨1, _⟩ => exact absurd rfl hb
      · show 64 + (j.val - 64) = j.val; omega
    · rw [dif_neg h']
      refine concatenate_apply_piece 1 _ _ (ix2 c j) 2 (by show (2 : ℕ) < 3; decide) S1024x64 wv rfl rfl 128 rfl
        (ix2 c (⟨j.val - 128, by omega⟩ : Fin 64)) (fun b hb => ?_) ?_
      · match b with
        | ⟨0, _⟩ => rfl
        | ⟨1, _⟩ => exact absurd rfl hb
      · show 128 + (j.val - 128) = j.val; omega

end Cert.KernelIdeal.PayMisc

end
-- ==== Proof.KI.ChainSem.lean ====
/-
  `chain` is `Cert.Attn.flash`: each `stepk` is one step of the walk on tile k's scores and values, read off the
  projection scratches as matrices, so by induction the carry after n tiles is the walk after n tiles.
-/
import proofs.«431441_j5385888989914_3_alg».proof.Proof.Spec
import proofs.«431441_j5385888989914_3_alg».proof.Proof.KI.PayTile
import proofs.«431441_j5385888989914_3_alg».proof.Proof.KI.PayMisc
import proofs.«431441_j5385888989914_3_alg».proof.Proof.KI.Chain
import Idealize.ShloMosaic.Lib.ValueIdx
import Idealize.ShloMosaic.Lib.Pipeline.Value

noncomputable section

namespace Cert.KernelIdeal.ChainSem

open Cert.KernelIdeal Cert.KernelIdeal.Gen Cert.KernelIdeal.Chain Cert.KernelIdeal.PayTile Cert.KernelIdeal.PayMisc
open Idealize.ShloMosaic Idealize.ShloMosaic.ValueIdx
open Cert.Attn (St step flash tileRow tileScore tileVal)

def mat2048 (X : S2048x64.Idx → EReal) : Cert.Attn.Mat 2048 64 := fun t h => X (ix2 t h)

theorem rows_apply (X : Vec Ideal S2048x64 .f32) (off : Fin 2 → Nat) (inb : ∀ a, off a + S256x64.size a ≤ S2048x64.size a)
    (hoff1 : off 1 = 0) (r : Fin 256) (h : Fin 64) :
    rows X off inb (ix2 r h)
      = X (ix2 (⟨off 0 + r.val, by have h0 : off 0 + 256 ≤ 2048 := inb 0; have := r.isLt; omega⟩ : Fin 2048) h) := by
  show X ((Rect.unit (s := S2048x64) off S256x64.size inb).idx (ix2 r h)) = _
  refine congrArg X (funext fun a => Fin.ext ?_)
  match a with
  | ⟨0, _⟩ => show off 0 + 1 * r.val = off 0 + r.val; omega
  | ⟨1, _⟩ => show off 1 + 1 * h.val = h.val; omega

/-- Rows [off, off + 256) of a scratch, as a matrix, are that tile of the scratch's matrix. -/
theorem mat_rows (X : Vec Ideal S2048x64 .f32) (off : Fin 2 → Nat) (inb : ∀ a, off a + S256x64.size a ≤ S2048x64.size a)
    (ki : Fin 8) (h0 : off 0 = 256 * ki.val) (h1 : off 1 = 0) :
    mat (rows X off inb) = tileVal (mat2048 X) ki := by
  funext c h
  show rows X off inb (ix2 c h) = X (ix2 (tileRow ki c) h)
  rw [rows_apply X off inb h1 c h]
  exact congrArg (fun t : Fin 2048 => X (ix2 t h)) (Fin.ext (by show off 0 + c.val = 256 * ki.val + c.val; omega))

theorem tscore_tiles (q k : Cert.Attn.Mat 2048 64) (qi ki : Fin 8) :
    tscore qi ki (tileVal q qi) (tileVal k ki) = tileScore q k qi ki := by
  funext r c
  show (if 256 * ki.val + c.val ≤ 256 * qi.val + r.val
          then (∑ h : Fin 64, q (tileRow qi r) h * k (tileRow ki c) h) * Cert.Attn.scale else ⊥)
      = if tileRow ki c ≤ tileRow qi r
          then (∑ h : Fin 64, q (tileRow qi r) h * k (tileRow ki c) h) * Cert.Attn.scale else ⊥
  exact if_congr Iff.rfl rfl rfl

theorem mat_qtile (i : grid0.Coords) (qi : Fin 8) (hi : (i 1).val = qi.val) (Q : Vec Ideal S2048x64 .f32) :
    mat (qtile (F := Ideal) i Q) = tileVal (mat2048 Q) qi := by
  show mat (k0_pay75 (F := Ideal) (rows Q (k0_off1 i) (k0_off1_inb i))) = _
  rw [qtile_id]
  refine mat_rows Q (k0_off1 i) (k0_off1_inb i) qi ?_ ?_
  · rw [k0_off1_eq i, ← hi]; rfl
  · rw [k0_off1_eq i]; rfl

theorem St_ext {a b : St} (hm : a.m = b.m) (hl : a.l = b.l) (ha : a.acc = b.acc) : a = b := by
  cases a; cases b; cases hm; cases hl; cases ha; rfl

theorem stOf_eq (s : St) (m' l' : S256x1.Idx → EReal) (a' : S256x64.Idx → EReal)
    (hm : ∀ r : Fin 256, m' (ix2 r (0 : Fin 1)) = s.m r) (hl : ∀ r : Fin 256, l' (ix2 r (0 : Fin 1)) = s.l r)
    (ha : ∀ (r : Fin 256) (h : Fin 64), a' (ix2 r h) = s.acc r h) : stOf m' l' a' = s :=
  St_ext (funext hm) (funext hl) (funext fun r => funext fun h => ha r h)

theorem stOf_carry0 :
    stOf (carry0 (F := Ideal)).1 (carry0 (F := Ideal)).2.1 (carry0 (F := Ideal)).2.2 = St.init := by
  show stOf (k0_pay72 (F := Ideal)) (k0_pay73 (F := Ideal)) (k0_pay74 (F := Ideal)) = _
  rw [reset_m, reset_l, reset_acc]
  rfl

/-- One more tile of the walk. -/
theorem flash_step (q k v : Cert.Attn.Mat 2048 64) (qi ki : Fin 8) :
    flash q k v qi (ki.val + 1) = step (tileScore q k qi ki) (tileVal v ki) (flash q k v qi ki.val) := by
  unfold Cert.Attn.flash
  rw [List.take_succ, List.foldl_append]
  have hk : (List.finRange 8)[ki.val]? = some ki := by simp
  rw [hk]
  rfl

variable (qi : Fin 8) (q : FVec Ideal S256x64 .bf16) (kt vt : Vec Ideal S256x64 .f32) (s : Carry Ideal)

theorem step0_sem :
    stOf (step0 (BitVec.ofNat 32 qi.val) q kt vt s).1 (step0 (BitVec.ofNat 32 qi.val) q kt vt s).2.1
        (step0 (BitVec.ofNat 32 qi.val) q kt vt s).2.2
      = step (tscore qi 0 (mat q) (mat kt)) (mat vt) (stOf s.1 s.2.1 s.2.2) :=
  stOf_eq _ _ _ _ (tile0_m qi q kt vt s.1 s.2.1 s.2.2) (tile0_l qi q kt vt s.1 s.2.1 s.2.2)
    (tile0_acc qi q kt vt s.1 s.2.1 s.2.2)

theorem step1_sem :
    stOf (step1 (BitVec.ofNat 32 qi.val) q kt vt s).1 (step1 (BitVec.ofNat 32 qi.val) q kt vt s).2.1
        (step1 (BitVec.ofNat 32 qi.val) q kt vt s).2.2
      = step (tscore qi 1 (mat q) (mat kt)) (mat vt) (stOf s.1 s.2.1 s.2.2) :=
  stOf_eq _ _ _ _ (tile1_m qi q kt vt s.1 s.2.1 s.2.2) (tile1_l qi q kt vt s.1 s.2.1 s.2.2)
    (tile1_acc qi q kt vt s.1 s.2.1 s.2.2)

theorem step2_sem :
    stOf (step2 (BitVec.ofNat 32 qi.val) q kt vt s).1 (step2 (BitVec.ofNat 32 qi.val) q kt vt s).2.1
        (step2 (BitVec.ofNat 32 qi.val) q kt vt s).2.2
      = step (tscore qi 2 (mat q) (mat kt)) (mat vt) (stOf s.1 s.2.1 s.2.2) :=
  stOf_eq _ _ _ _ (tile2_m qi q kt vt s.1 s.2.1 s.2.2) (tile2_l qi q kt vt s.1 s.2.1 s.2.2)
    (tile2_acc qi q kt vt s.1 s.2.1 s.2.2)

theorem step3_sem :
    stOf (step3 (BitVec.ofNat 32 qi.val) q kt vt s).1 (step3 (BitVec.ofNat 32 qi.val) q kt vt s).2.1
        (step3 (BitVec.ofNat 32 qi.val) q kt vt s).2.2
      = step (tscore qi 3 (mat q) (mat kt)) (mat vt) (stOf s.1 s.2.1 s.2.2) :=
  stOf_eq _ _ _ _ (tile3_m qi q kt vt s.1 s.2.1 s.2.2) (tile3_l qi q kt vt s.1 s.2.1 s.2.2)
    (tile3_acc qi q kt vt s.1 s.2.1 s.2.2)

theorem step4_sem :
    stOf (step4 (BitVec.ofNat 32 qi.val) q kt vt s).1 (step4 (BitVec.ofNat 32 qi.val) q kt vt s).2.1
        (step4 (BitVec.ofNat 32 qi.val) q kt vt s).2.2
      = step (tscore qi 4 (mat q) (mat kt)) (mat vt) (stOf s.1 s.2.1 s.2.2) :=
  stOf_eq _ _ _ _ (tile4_m qi q kt vt s.1 s.2.1 s.2.2) (tile4_l qi q kt vt s.1 s.2.1 s.2.2)
    (tile4_acc qi q kt vt s.1 s.2.1 s.2.2)

theorem step5_sem :
    stOf (step5 (BitVec.ofNat 32 qi.val) q kt vt s).1 (step5 (BitVec.ofNat 32 qi.val) q kt vt s).2.1
        (step5 (BitVec.ofNat 32 qi.val) q kt vt s).2.2
      = step (tscore qi 5 (mat q) (mat kt)) (mat vt) (stOf s.1 s.2.1 s.2.2) :=
  stOf_eq _ _ _ _ (tile5_m qi q kt vt s.1 s.2.1 s.2.2) (tile5_l qi q kt vt s.1 s.2.1 s.2.2)
    (tile5_acc qi q kt vt s.1 s.2.1 s.2.2)

theorem step6_sem :
    stOf (step6 (BitVec.ofNat 32 qi.val) q kt vt s).1 (step6 (BitVec.ofNat 32 qi.val) q kt vt s).2.1
        (step6 (BitVec.ofNat 32 qi.val) q kt vt s).2.2
      = step (tscore qi 6 (mat q) (mat kt)) (mat vt) (stOf s.1 s.2.1 s.2.2) :=
  stOf_eq _ _ _ _ (tile6_m qi q kt vt s.1 s.2.1 s.2.2) (tile6_l qi q kt vt s.1 s.2.1 s.2.2)
    (tile6_acc qi q kt vt s.1 s.2.1 s.2.2)

theorem step7_sem :
    stOf (step7 (BitVec.ofNat 32 qi.val) q kt vt s).1 (step7 (BitVec.ofNat 32 qi.val) q kt vt s).2.1
        (step7 (BitVec.ofNat 32 qi.val) q kt vt s).2.2
      = step (tscore qi 7 (mat q) (mat kt)) (mat vt) (stOf s.1 s.2.1 s.2.2) :=
  stOf_eq _ _ _ _ (tile7_m qi q kt vt s.1 s.2.1 s.2.2) (tile7_l qi q kt vt s.1 s.2.1 s.2.2)
    (tile7_acc qi q kt vt s.1 s.2.1 s.2.2)

/-- A visit that is the specification's step on tile ki takes a carry that reads as the walk after ki tiles to one that reads as the walk after ki + 1. -/
theorem advance (i : grid0.Coords) (qi : Fin 8) (hi : (i 1).val = qi.val) (Q K V : Vec Ideal S2048x64 .f32) (ki : Fin 8)
    (off : Fin 2 → Nat) (inb : ∀ a, off a + S256x64.size a ≤ S2048x64.size a) (h0 : off 0 = 256 * ki.val) (h1 : off 1 = 0)
    (stp : BitVec 32 → FVec Ideal S256x64 .bf16 → Vec Ideal S256x64 .f32 → Vec Ideal S256x64 .f32 → Carry Ideal → Carry Ideal)
    (hstp : ∀ (q : FVec Ideal S256x64 .bf16) (kt vt : Vec Ideal S256x64 .f32) (s : Carry Ideal),
      stOf (stp (BitVec.ofNat 32 qi.val) q kt vt s).1 (stp (BitVec.ofNat 32 qi.val) q kt vt s).2.1
          (stp (BitVec.ofNat 32 qi.val) q kt vt s).2.2
        = step (tscore qi ki (mat q) (mat kt)) (mat vt) (stOf s.1 s.2.1 s.2.2))
    (c : Carry Ideal) (hc : stOf c.1 c.2.1 c.2.2 = flash (mat2048 Q) (mat2048 K) (mat2048 V) qi ki.val) :
    stOf (stp (a1 i) (qtile i Q) (rows K off inb) (rows V off inb) c).1
        (stp (a1 i) (qtile i Q) (rows K off inb) (rows V off inb) c).2.1
        (stp (a1 i) (qtile i Q) (rows K off inb) (rows V off inb) c).2.2
      = flash (mat2048 Q) (mat2048 K) (mat2048 V) qi (ki.val + 1) := by
  have ha : a1 i = BitVec.ofNat 32 qi.val := congrArg (BitVec.ofNat 32) hi
  rw [ha, hstp, hc, flash_step, mat_qtile i qi hi Q, mat_rows K off inb ki h0 h1, mat_rows V off inb ki h0 h1,
    tscore_tiles]

/-- The carry after n ≤ 8 tiles reads as the walk after n tiles. -/
theorem chain_eq_flash (i : grid0.Coords) (qi : Fin 8) (hi : (i 1).val = qi.val) (Q K V : Vec Ideal S2048x64 .f32)
    (n : Nat) (hn : n ≤ 8) :
    stOf (chain (F := Ideal) i Q K V n).1 (chain (F := Ideal) i Q K V n).2.1 (chain (F := Ideal) i Q K V n).2.2
      = flash (mat2048 Q) (mat2048 K) (mat2048 V) qi n := by
  have e0 : stOf (chain (F := Ideal) i Q K V 0).1 (chain (F := Ideal) i Q K V 0).2.1 (chain (F := Ideal) i Q K V 0).2.2
      = flash (mat2048 Q) (mat2048 K) (mat2048 V) qi 0 := by
    rw [chain.eq_1]; exact stOf_carry0
  have e1 : stOf (chain (F := Ideal) i Q K V 1).1 (chain (F := Ideal) i Q K V 1).2.1 (chain (F := Ideal) i Q K V 1).2.2
      = flash (mat2048 Q) (mat2048 K) (mat2048 V) qi 1 := by
    rw [chain.eq_2]
    exact advance i qi hi Q K V 0 ![0, 0] inb_S2048x64_S256x64_0_0 rfl rfl step0 (step0_sem qi) _ e0
  have e2 : stOf (chain (F := Ideal) i Q K V 2).1 (chain (F := Ideal) i Q K V 2).2.1 (chain (F := Ideal) i Q K V 2).2.2
      = flash (mat2048 Q) (mat2048 K) (mat2048 V) qi 2 := by
    rw [chain.eq_3]
    exact advance i qi hi Q K V 1 ![256, 0] inb_S2048x64_S256x64_256_0 rfl rfl step1 (step1_sem qi) _ e1
  have e3 : stOf (chain (F := Ideal) i Q K V 3).1 (chain (F := Ideal) i Q K V 3).2.1 (chain (F := Ideal) i Q K V 3).2.2
      = flash (mat2048 Q) (mat2048 K) (mat2048 V) qi 3 := by
    rw [chain.eq_4]
    exact advance i qi hi Q K V 2 ![512, 0] inb_S2048x64_S256x64_512_0 rfl rfl step2 (step2_sem qi) _ e2
  have e4 : stOf (chain (F := Ideal) i Q K V 4).1 (chain (F := Ideal) i Q K V 4).2.1 (chain (F := Ideal) i Q K V 4).2.2
      = flash (mat2048 Q) (mat2048 K) (mat2048 V) qi 4 := by
    rw [chain.eq_5]
    exact advance i qi hi Q K V 3 ![768, 0] inb_S2048x64_S256x64_768_0 rfl rfl step3 (step3_sem qi) _ e3
  have e5 : stOf (chain (F := Ideal) i Q K V 5).1 (chain (F := Ideal) i Q K V 5).2.1 (chain (F := Ideal) i Q K V 5).2.2
      = flash (mat2048 Q) (mat2048 K) (mat2048 V) qi 5 := by
    rw [chain.eq_6]
    exact advance i qi hi Q K V 4 ![1024, 0] inb_S2048x64_S256x64_1024_0 rfl rfl step4 (step4_sem qi) _ e4
  have e6 : stOf (chain (F := Ideal) i Q K V 6).1 (chain (F := Ideal) i Q K V 6).2.1 (chain (F := Ideal) i Q K V 6).2.2
      = flash (mat2048 Q) (mat2048 K) (mat2048 V) qi 6 := by
    rw [chain.eq_7]
    exact advance i qi hi Q K V 5 ![1280, 0] inb_S2048x64_S256x64_1280_0 rfl rfl step5 (step5_sem qi) _ e5
  have e7 : stOf (chain (F := Ideal) i Q K V 7).1 (chain (F := Ideal) i Q K V 7).2.1 (chain (F := Ideal) i Q K V 7).2.2
      = flash (mat2048 Q) (mat2048 K) (mat2048 V) qi 7 := by
    rw [chain.eq_8]
    exact advance i qi hi Q K V 6 ![1536, 0] inb_S2048x64_S256x64_1536_0 rfl rfl step6 (step6_sem qi) _ e6
  have e8 : stOf (chain (F := Ideal) i Q K V 8).1 (chain (F := Ideal) i Q K V 8).2.1 (chain (F := Ideal) i Q K V 8).2.2
      = flash (mat2048 Q) (mat2048 K) (mat2048 V) qi 8 := by
    rw [chain.eq_9]
    exact advance i qi hi Q K V 7 ![1792, 0] inb_S2048x64_S256x64_1792_0 rfl rfl step7 (step7_sem qi) _ e7
  match n, hn with
  | 0, _ => exact e0
  | 1, _ => exact e1
  | 2, _ => exact e2
  | 3, _ => exact e3
  | 4, _ => exact e4
  | 5, _ => exact e5
  | 6, _ => exact e6
  | 7, _ => exact e7
  | 8, _ => exact e8
  | n + 9, h => exact absurd h (by omega)

theorem outOf_apply (s : Carry Ideal) (r : Fin 256) (h : Fin 64) :
    outOf (F := Ideal) s (ix3 (0 : Fin 1) r h) = (stOf s.1 s.2.1 s.2.2).out r h := by
  show k0_pay11 (F := Ideal) s.2.2 s.2.1 (ix3 (0 : Fin 1) r h) = _
  rw [out_apply]
  rfl

/-- The stored block after qi + 1 tiles is the walk's quotient. -/
theorem out_chain (i : grid0.Coords) (qi : Fin 8) (hi : (i 1).val = qi.val) (Q K V : Vec Ideal S2048x64 .f32)
    (r : Fin 256) (h : Fin 64) :
    outOf (chain (F := Ideal) i Q K V (qi.val + 1)) (ix3 (0 : Fin 1) r h)
      = (flash (mat2048 Q) (mat2048 K) (mat2048 V) qi (qi.val + 1)).out r h := by
  rw [outOf_apply, chain_eq_flash i qi hi Q K V (qi.val + 1) (by have := qi.isLt; omega)]

end Cert.KernelIdeal.ChainSem

end
-- ==== Proof.Flash.lean ====
/-
  The walk ends at softmax attention. exp (m − m') · exp (s − m) = exp (s − m') and (Σ w·v) / L = Σ (w / L)·v hold over
  the reals, so the argument runs where projections are real: unmasked scores are then real, masked ones −∞, and
  every visited key tile has an unmasked column in each row, which keeps the running maximum real.
-/
import proofs.«431441_j5385888989914_3_alg».proof.Proof.Spec
import Mathlib.Data.EReal.Operations
import Mathlib.Data.EReal.Inv
import Mathlib.Analysis.SpecialFunctions.Exp

noncomputable section

namespace Cert.Attn

open Idealize.ShloMosaic

theorem scale_eq : scale = (((1 : ℝ) / 32 : ℝ) : EReal) := by
  unfold scale
  simp [Ideal.ofBits, Ideal.ieee, -EReal.coe_mul]
  norm_num

theorem coe_sum {ι : Type*} (s : Finset ι) (g : ι → ℝ) :
    ((∑ i ∈ s, g i : ℝ) : EReal) = ∑ i ∈ s, (g i : EReal) := by
  induction s using Finset.cons_induction with
  | empty => simp
  | cons a s ha ih => rw [Finset.sum_cons, Finset.sum_cons, EReal.coe_add, ih]

/-- exp (x − M) as a real number. -/
def ex (x : EReal) (M : ℝ) : ℝ := (Ideal.exp (x - (M : EReal))).toReal

theorem ex_bot (M : ℝ) : ex ⊥ M = 0 := by
  simp [ex, EReal.bot_sub]

theorem ex_coe (a M : ℝ) : ex (a : EReal) M = Real.exp (a - M) := by
  rw [ex, ← EReal.coe_sub, Ideal.exp_coe, EReal.toReal_coe]

theorem exp_sub_coe {x : EReal} (hx : x ≠ ⊤) (M : ℝ) :
    Ideal.exp (x - (M : EReal)) = ((ex x M : ℝ) : EReal) := by
  induction x using EReal.rec with
  | bot => rw [ex_bot, EReal.bot_sub, Ideal.exp_bot, EReal.coe_zero]
  | coe a => rw [ex_coe, ← EReal.coe_sub, Ideal.exp_coe]
  | top => exact absurd rfl hx

theorem ex_nonneg {x : EReal} (hx : x ≠ ⊤) (M : ℝ) : 0 ≤ ex x M := by
  induction x using EReal.rec with
  | bot => rw [ex_bot]
  | coe a => rw [ex_coe]; exact (Real.exp_pos _).le
  | top => exact absurd rfl hx

/-- Moving a weight's reference point from `M` to `M'`. -/
theorem ex_rescale {x : EReal} (hx : x ≠ ⊤) (M M' : ℝ) : Real.exp (M - M') * ex x M = ex x M' := by
  induction x using EReal.rec with
  | bot => rw [ex_bot, ex_bot, mul_zero]
  | coe a => rw [ex_coe, ex_coe, ← Real.exp_add]; congr 1; ring
  | top => exact absurd rfl hx

/-- An unmasked score of real projections is real. -/
theorem score_real {q k : Mat 2048 64}
    (hq : ∀ t h, ∃ r : ℝ, q t h = (r : EReal)) (hk : ∀ t h, ∃ r : ℝ, k t h = (r : EReal))
    {t s : Fin 2048} (hst : s ≤ t) : ∃ x : ℝ, score q k t s = (x : EReal) := by
  choose Q hQ using hq
  choose K hK using hk
  refine ⟨(∑ h : Fin 64, Q t h * K s h) * (1 / 32), ?_⟩
  rw [score, if_pos hst, scale_eq, EReal.coe_mul, coe_sum]
  congr 1
  refine Finset.sum_congr rfl fun h _ => ?_
  rw [hQ, hK, EReal.coe_mul]

theorem score_masked (q k : Mat 2048 64) {t s : Fin 2048} (hst : ¬ s ≤ t) : score q k t s = ⊥ := by
  rw [score, if_neg hst]

theorem score_ne_top {q k : Mat 2048 64}
    (hq : ∀ t h, ∃ r : ℝ, q t h = (r : EReal)) (hk : ∀ t h, ∃ r : ℝ, k t h = (r : EReal))
    (t s : Fin 2048) : score q k t s ≠ ⊤ := by
  by_cases hst : s ≤ t
  · obtain ⟨x, hx⟩ := score_real hq hk hst
    rw [hx]; exact EReal.coe_ne_top x
  · rw [score_masked q k hst]; exact bot_ne_top

/-- The key rows of the first `n` tiles. -/
def upto (n : ℕ) : Finset (Fin 2048) := Finset.univ.filter fun s => s.val < 256 * n

def tile (ki : Fin 8) : Finset (Fin 2048) := Finset.univ.image (tileRow ki)

theorem tileRow_injective (ki : Fin 8) : Function.Injective (tileRow ki) := by
  intro c c' h
  have h' := congrArg Fin.val h
  simp only [tileRow] at h'
  exact Fin.ext (by omega)

theorem mem_upto {n : ℕ} {s : Fin 2048} : s ∈ upto n ↔ s.val < 256 * n := by
  simp only [upto, Finset.mem_filter, Finset.mem_univ, true_and]

theorem mem_tile {ki : Fin 8} {s : Fin 2048} : s ∈ tile ki ↔ ∃ c, tileRow ki c = s := by
  simp only [tile, Finset.mem_image, Finset.mem_univ, true_and]

theorem upto_zero : upto 0 = ∅ := by
  ext s
  simp only [mem_upto, Nat.mul_zero, Nat.not_lt_zero, Finset.notMem_empty]

/-- Visiting tile `ki` adds exactly its rows. -/
theorem upto_succ (ki : Fin 8) : upto (ki.val + 1) = upto ki.val ∪ tile ki := by
  ext s
  rw [Finset.mem_union, mem_upto, mem_upto, mem_tile]
  constructor
  · intro h
    by_cases h' : s.val < 256 * ki.val
    · exact Or.inl h'
    · exact Or.inr ⟨⟨s.val - 256 * ki.val, by omega⟩, Fin.ext (by simp only [tileRow]; omega)⟩
  · rintro (h | ⟨c, rfl⟩)
    · omega
    · simp only [tileRow]; omega

theorem upto_disjoint (ki : Fin 8) : Disjoint (upto ki.val) (tile ki) := by
  rw [Finset.disjoint_left]
  intro s hs ht
  rw [mem_upto] at hs
  obtain ⟨c, rfl⟩ := mem_tile.mp ht
  simp only [tileRow] at hs
  omega

theorem tile_sum (ki : Fin 8) (F : Fin 2048 → ℝ) : ∑ s ∈ tile ki, F s = ∑ c : Fin 256, F (tileRow ki c) :=
  Finset.sum_image fun _ _ _ _ hab => tileRow_injective ki hab

/-- A finite supremum with no +∞ and one value above −∞ is real. -/
theorem sup_real {f : Fin 2048 → EReal} (hf : ∀ s, f s ≠ ⊤) (Q : Finset (Fin 2048)) {s0 : Fin 2048}
    (hs0 : s0 ∈ Q) (h0 : f s0 ≠ ⊥) : ∃ M : ℝ, Q.sup f = (M : EReal) := by
  have h1 : Q.sup f ≠ ⊤ := by
    apply ne_of_lt
    rw [Finset.sup_lt_iff bot_lt_top]
    exact fun b _ => lt_top_iff_ne_top.mpr (hf b)
  have h2 : Q.sup f ≠ ⊥ := by
    intro h
    have h3 := Finset.le_sup (f := f) hs0
    rw [h, le_bot_iff] at h3
    exact h0 h3
  exact ⟨(Q.sup f).toReal, (EReal.coe_toReal h1 h2).symm⟩

/-- For one query row and output column after key rows `P`: `m` is their largest score, `l` and `a` the sums of weights and of weights times values, both relative to `m`. -/
def RowInv (f : Fin 2048 → EReal) (g : Fin 2048 → ℝ) (P : Finset (Fin 2048)) (m l a : EReal) : Prop :=
  m = P.sup f ∧ ∀ M' : ℝ,
    Ideal.exp (m - (M' : EReal)) * l = ((∑ s ∈ P, ex (f s) M' : ℝ) : EReal) ∧
    Ideal.exp (m - (M' : EReal)) * a = ((∑ s ∈ P, ex (f s) M' * g s : ℝ) : EReal)

theorem RowInv.init (f : Fin 2048 → EReal) (g : Fin 2048 → ℝ) : RowInv f g ∅ ⊥ 0 0 := by
  refine ⟨Finset.sup_empty.symm, fun M' => ?_⟩
  rw [mul_zero, Finset.sum_empty, Finset.sum_empty, EReal.coe_zero]
  exact ⟨rfl, rfl⟩

/-- Adding key rows `T`, one of them unmasked, keeps the invariant under the walk's update. -/
theorem RowInv.step {f : Fin 2048 → EReal} {g : Fin 2048 → ℝ} {P : Finset (Fin 2048)} {m l a : EReal}
    (hf : ∀ s, f s ≠ ⊤) (H : RowInv f g P m l a) (T : Finset (Fin 2048)) (hd : Disjoint P T)
    {s0 : Fin 2048} (hs0 : s0 ∈ T) (h0 : f s0 ≠ ⊥) :
    ∃ M : ℝ, max m (T.sup f) = (M : EReal) ∧
      RowInv f g (P ∪ T) (M : EReal)
        (Ideal.exp (m - (M : EReal)) * l + ((∑ s ∈ T, ex (f s) M : ℝ) : EReal))
        (Ideal.exp (m - (M : EReal)) * a + ((∑ s ∈ T, ex (f s) M * g s : ℝ) : EReal)) := by
  obtain ⟨hm, hsum⟩ := H
  have hmax : max m (T.sup f) = (P ∪ T).sup f := by rw [hm, Finset.sup_union]
  obtain ⟨M, hM⟩ := sup_real hf (P ∪ T) (Finset.mem_union_right P hs0) h0
  refine ⟨M, hmax.trans hM, hM.symm, fun M' => ?_⟩
  obtain ⟨hl, ha⟩ := hsum M
  have e : Ideal.exp ((M : EReal) - (M' : EReal)) = ((Real.exp (M - M') : ℝ) : EReal) := by
    rw [← EReal.coe_sub, Ideal.exp_coe]
  constructor
  · rw [hl, ← EReal.coe_add, ← Finset.sum_union hd, e, ← EReal.coe_mul, Finset.mul_sum]
    congr 1
    exact Finset.sum_congr rfl fun s _ => ex_rescale (hf s) M M'
  · rw [ha, ← EReal.coe_add, ← Finset.sum_union hd, e, ← EReal.coe_mul, Finset.mul_sum]
    congr 1
    refine Finset.sum_congr rfl fun s _ => ?_
    rw [← mul_assoc, ex_rescale (hf s) M M']

theorem step_m (S : Fin 256 → Fin 256 → EReal) (vt : Fin 256 → Fin 64 → EReal) (s : St) (r : Fin 256) :
    (step S vt s).m r = max (s.m r) (Finset.univ.sup (S r)) := rfl

theorem step_l (S : Fin 256 → Fin 256 → EReal) (vt : Fin 256 → Fin 64 → EReal) (s : St) (r : Fin 256) :
    (step S vt s).l r = Ideal.exp (s.m r - (step S vt s).m r) * s.l r
      + ∑ c : Fin 256, Ideal.exp (S r c - (step S vt s).m r) := rfl

theorem step_acc (S : Fin 256 → Fin 256 → EReal) (vt : Fin 256 → Fin 64 → EReal) (s : St) (r : Fin 256)
    (h : Fin 64) :
    (step S vt s).acc r h = Ideal.exp (s.m r - (step S vt s).m r) * s.acc r h
      + ∑ c : Fin 256, Ideal.exp (S r c - (step S vt s).m r) * vt c h := rfl

theorem flash_zero (q k v : Mat 2048 64) (qi : Fin 8) : flash q k v qi 0 = St.init := rfl

theorem flash_succ (q k v : Mat 2048 64) (qi ki : Fin 8) :
    flash q k v qi (ki.val + 1) = step (tileScore q k qi ki) (tileVal v ki) (flash q k v qi ki.val) := by
  unfold flash
  rw [List.take_succ, List.foldl_append]
  have hk : (List.finRange 8)[ki.val]? = some ki := by simp
  rw [hk]
  rfl

/-- The invariant holds along the walk while no tile beyond the query's own is visited. -/
theorem flash_inv {q k v : Mat 2048 64}
    (hq : ∀ t h, ∃ r : ℝ, q t h = (r : EReal)) (hk : ∀ t h, ∃ r : ℝ, k t h = (r : EReal))
    (V : Fin 2048 → Fin 64 → ℝ) (hV : ∀ s h, v s h = (V s h : EReal))
    (qi : Fin 8) (r : Fin 256) (h : Fin 64) (n : ℕ) (hn : n ≤ qi.val + 1) :
    RowInv (score q k (tileRow qi r)) (fun s => V s h) (upto n)
      ((flash q k v qi n).m r) ((flash q k v qi n).l r) ((flash q k v qi n).acc r h) := by
  induction n with
  | zero =>
    rw [upto_zero, flash_zero]
    exact RowInv.init _ _
  | succ n ih =>
    obtain ⟨ki, hki⟩ : ∃ ki : Fin 8, ki.val = n := ⟨⟨n, by omega⟩, rfl⟩
    subst hki
    have H := ih (by omega)
    have hf := score_ne_top hq hk (tileRow qi r)
    have h0 : score q k (tileRow qi r) (tileRow ki 0) ≠ ⊥ := by
      have hle : tileRow ki 0 ≤ tileRow qi r := by
        rw [Fin.le_def]; simp only [tileRow]; omega
      obtain ⟨x, hx⟩ := score_real hq hk hle
      rw [hx]; exact EReal.coe_ne_bot x
    obtain ⟨M, hM, Hn⟩ := H.step hf (tile ki) (upto_disjoint ki)
      (mem_tile.mpr ⟨0, rfl⟩) h0
    have em : (step (tileScore q k qi ki) (tileVal v ki) (flash q k v qi ki.val)).m r = (M : EReal) := by
      rw [step_m, ← hM, tile, Finset.sup_image]
      rfl
    have e1 : ∑ c : Fin 256, Ideal.exp (tileScore q k qi ki r c - (M : EReal))
        = ((∑ s ∈ tile ki, ex (score q k (tileRow qi r) s) M : ℝ) : EReal) := by
      rw [tile_sum, coe_sum]
      exact Finset.sum_congr rfl fun c _ => exp_sub_coe (hf _) M
    have e2 : ∑ c : Fin 256, Ideal.exp (tileScore q k qi ki r c - (M : EReal)) * tileVal v ki c h
        = ((∑ s ∈ tile ki, ex (score q k (tileRow qi r) s) M * V s h : ℝ) : EReal) := by
      rw [tile_sum, coe_sum]
      refine Finset.sum_congr rfl fun c _ => ?_
      rw [EReal.coe_mul, ← exp_sub_coe (hf _) M, ← hV]
      rfl
    rw [upto_succ, flash_succ, step_l, step_acc, em, e1, e2]
    exact Hn

/-- Once every unvisited row is masked, `a / l` is the softmax row applied to the values. -/
theorem RowInv.final {f : Fin 2048 → EReal} {g : Fin 2048 → ℝ} {P : Finset (Fin 2048)} {m l a : EReal}
    (hf : ∀ s, f s ≠ ⊤) (H : RowInv f g P m l a) (hout : ∀ s, s ∉ P → f s = ⊥)
    {s0 : Fin 2048} (hs0 : s0 ∈ P) (h0 : f s0 ≠ ⊥) :
    Ideal.div a l = ∑ s : Fin 2048,
      Ideal.div (Ideal.exp (f s - Finset.univ.sup f)) (∑ s' : Fin 2048, Ideal.exp (f s' - Finset.univ.sup f))
        * ((g s : ℝ) : EReal) := by
  obtain ⟨hm, hsum⟩ := H
  obtain ⟨M, hM⟩ := sup_real hf P hs0 h0

  have hrow : Finset.univ.sup f = (M : EReal) := by
    rw [← hM]
    apply le_antisymm
    · apply Finset.sup_le
      intro s _
      by_cases hs : s ∈ P
      · exact Finset.le_sup hs
      · rw [hout s hs]; exact bot_le
    · exact Finset.sup_mono (Finset.subset_univ _)

  have e0 : Ideal.exp ((M : EReal) - (M : EReal)) = 1 := by
    rw [← EReal.coe_sub, sub_self, Ideal.exp_coe, Real.exp_zero, EReal.coe_one]
  obtain ⟨hl, ha⟩ := hsum M
  rw [hm, hM, e0, one_mul] at hl ha

  have hzero : ∀ s, s ∈ Finset.univ → s ∉ P → ex (f s) M = 0 := fun s _ hs => by rw [hout s hs, ex_bot]
  have hL : ∑ s ∈ P, ex (f s) M = ∑ s : Fin 2048, ex (f s) M :=
    Finset.sum_subset (Finset.subset_univ _) hzero
  have hA : ∑ s ∈ P, ex (f s) M * g s = ∑ s : Fin 2048, ex (f s) M * g s :=
    Finset.sum_subset (Finset.subset_univ _) fun s hs hs' => by rw [hzero s hs hs', zero_mul]

  have hpos : 0 < ∑ s : Fin 2048, ex (f s) M := by
    rw [← hL]
    refine Finset.sum_pos' (fun s _ => ex_nonneg (hf s) M) ⟨s0, hs0, ?_⟩
    obtain ⟨x, hx⟩ : ∃ x : ℝ, f s0 = (x : EReal) := ⟨(f s0).toReal, (EReal.coe_toReal (hf s0) h0).symm⟩
    rw [hx, ex_coe]; exact Real.exp_pos _
  have hden : ∑ s' : Fin 2048, Ideal.exp (f s' - (M : EReal)) = ((∑ s : Fin 2048, ex (f s) M : ℝ) : EReal) := by
    rw [coe_sum]
    exact Finset.sum_congr rfl fun s _ => exp_sub_coe (hf s) M
  rw [hl, ha, hL, hA, hrow, hden, Ideal.div_coe hpos.ne', ← EReal.coe_mul, Finset.sum_mul, coe_sum]
  refine Finset.sum_congr rfl fun s _ => ?_
  rw [Ideal.div_coe hpos.ne', exp_sub_coe (hf s) M, ← EReal.coe_mul, ← EReal.coe_mul]
  congr 1
  ring

/-- After the query tile's own key tile the walk's quotient is softmax attention. -/
theorem flash_eq_attn (q k v : Mat 2048 64)
    (hq : ∀ t h, ∃ r : ℝ, q t h = (r : EReal)) (hk : ∀ t h, ∃ r : ℝ, k t h = (r : EReal))
    (hv : ∀ t h, ∃ r : ℝ, v t h = (r : EReal))
    (qi : Fin 8) (r : Fin 256) (h : Fin 64) :
    (flash q k v qi (qi.val + 1)).out r h = attn q k v (tileRow qi r) h := by
  choose V hV using hv
  have hf := score_ne_top hq hk (tileRow qi r)
  have H := flash_inv hq hk V hV qi r h (qi.val + 1) le_rfl
  have hout : ∀ s, s ∉ upto (qi.val + 1) → score q k (tileRow qi r) s = ⊥ := by
    intro s hs
    apply score_masked
    rw [mem_upto] at hs
    rw [Fin.le_def]; simp only [tileRow]; omega
  have hs0 : tileRow qi 0 ∈ upto (qi.val + 1) := by
    rw [mem_upto]; simp only [tileRow]; omega
  have h0 : score q k (tileRow qi r) (tileRow qi 0) ≠ ⊥ := by
    have hle : tileRow qi 0 ≤ tileRow qi r := by
      rw [Fin.le_def]; simp only [tileRow]; omega
    obtain ⟨x, hx⟩ := score_real hq hk hle
    rw [hx]; exact EReal.coe_ne_bot x
  have hfin := H.final hf hout hs0 h0
  unfold St.out attn weight rowMax
  rw [hfin]
  exact Finset.sum_congr rfl fun s _ => by rw [hV]

end Cert.Attn

end
-- ==== Proof.Finite.lean ====
/-
  The precondition, "|x| < +∞ at every entry of the four argument arrays", read entry by entry: every entry is real.
-/
import proofs.«431441_j5385888989914_3_alg».proof.Defs
import proofs.«431441_j5385888989914_3_alg».proof.Proof.Gen.Pre_finite_inputs
import Idealize.ShloMosaic.Lib.ReduceAll
import Idealize.ShloMosaic.Lib.ValueIdx

noncomputable section

namespace Cert.Finite

open Idealize.ShloMosaic Idealize.SL.Sem

theorem inf_word : Ideal.ofBits .f32 0x7F800000#32 = (⊤ : EReal) := by
  simp [Ideal.ofBits, Ideal.ieee]

/-- An extended real below +∞ in absolute value is real. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => exact absurd h (by simp [Ideal.cmp])
  | coe r => exact ⟨r, rfl⟩
  | top => exact absurd h (by simp [Ideal.cmp])

instance subsingleton_scalar_idx : Subsingleton Cert.Pre_finite_inputs.S_.Idx :=
  ⟨fun a b => funext fun d => d.elim0⟩

/-- An all-reduce of the entrywise test equal to 1 gives the test at every entry. -/
theorem real_of_all {s u : Shape} {axes : List (Fin s.rank)} (v : FVec Ideal s .f32)
    (hb : Cert.Pre_finite_inputs.S_.BroadcastsInDim s (![] : Fin 0 → Fin s.rank))
    (hr : s.ReducesTo axes Cert.Pre_finite_inputs.S_) (init : u.Idx → BitVec 1) (hu : 0 < u.numel)
    (j : Cert.Pre_finite_inputs.S_.Idx)
    (e : Host.reduce IntOp.andi
          (cmpf .olt (Host.absf v)
            (broadcastInDim s ![] hb (constant (F := Ideal) Cert.Pre_finite_inputs.S_ .f32 0x7F800000#32)))
          init hr hu j = 1#1)
    (i : s.Idx) : ∃ r : ℝ, v i = (r : EReal) :=
  real_of_abs_lt_inf (v i) (Host.reduce_andi_all _ init hr hu j e i)

theorem real_of_fn [Cert.Pre_finite_inputs.Facts]
    (x : FVec Ideal Cert.Pre_finite_inputs.S8x2048x1024 .f32)
    (wk wq wv : FVec Ideal Cert.Pre_finite_inputs.S1024x64 .f32)
    (h : Cert.Pre_finite_inputs.fn (F := Ideal) x wk wq wv = (fun _ => 1#1)) :
    (∀ i, ∃ r : ℝ, x i = (r : EReal)) ∧ (∀ i, ∃ r : ℝ, wk i = (r : EReal))
      ∧ (∀ i, ∃ r : ℝ, wq i = (r : EReal)) ∧ (∀ i, ∃ r : ℝ, wv i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨hx, h1⟩ := IntOp.andi_eq_one.1 h01
  exact ⟨fun i => real_of_all x _ _ _ _ _ hx i, fun i => real_of_all wk _ _ _ _ _ h1 i,
    fun i => real_of_all wq _ _ _ _ _ h2 i, fun i => real_of_all wv _ _ _ _ _ h3 i⟩

/-- Under the precondition every entry of every argument buffer is real. -/
theorem real_of_pre [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : Cert.Pre_finite_inputs.S8x2048x1024.Idx, ∃ r : ℝ,
        (m ((c.tc : Thread Cert.KernelIdeal.nD Cert.KernelIdeal.τ).loc Cert.KernelIdeal.main_arg0)
          : FVec Ideal Cert.Pre_finite_inputs.S8x2048x1024 .f32) i = (r : EReal))
      ∧ (∀ i : Cert.Pre_finite_inputs.S1024x64.Idx, ∃ r : ℝ,
        (m ((c.tc : Thread Cert.KernelIdeal.nD Cert.KernelIdeal.τ).loc Cert.KernelIdeal.main_arg1)
          : FVec Ideal Cert.Pre_finite_inputs.S1024x64 .f32) i = (r : EReal))
      ∧ (∀ i : Cert.Pre_finite_inputs.S1024x64.Idx, ∃ r : ℝ,
        (m ((c.tc : Thread Cert.KernelIdeal.nD Cert.KernelIdeal.τ).loc Cert.KernelIdeal.main_arg2)
          : FVec Ideal Cert.Pre_finite_inputs.S1024x64 .f32) i = (r : EReal))
      ∧ (∀ i : Cert.Pre_finite_inputs.S1024x64.Idx, ∃ r : ℝ,
        (m ((c.tc : Thread Cert.KernelIdeal.nD Cert.KernelIdeal.τ).loc Cert.KernelIdeal.main_arg3)
          : FVec Ideal Cert.Pre_finite_inputs.S1024x64 .f32) i = (r : EReal)) :=
  real_of_fn _ _ _ _ (hpre c)

end Cert.Finite
-- ==== Proof.KI.Points.lean ====
/-
  Every point's output block is the specification on its rows. After every point the three scratches hold the batch's
  projections (a point with qi ≠ 0 shares its batch with the point before); the block is the walk's quotient after
  key tiles 0..qi from those scratches, which is softmax attention because under the precondition every projection
  entry is real.
-/
import proofs.«431441_j5385888989914_3_alg».proof.Proof.KI.Pieces
import proofs.«431441_j5385888989914_3_alg».proof.Proof.KI.Blocks
import proofs.«431441_j5385888989914_3_alg».proof.Proof.KI.ChainSem
import proofs.«431441_j5385888989914_3_alg».proof.Proof.KI.PayMisc
import proofs.«431441_j5385888989914_3_alg».proof.Proof.Flash
import proofs.«431441_j5385888989914_3_alg».proof.Proof.Finite
import proofs.«431441_j5385888989914_3_alg».proof.Proof.Spec

set_option maxRecDepth 16384

noncomputable section

namespace Cert.KernelIdeal.Points

open Cert.KernelIdeal Cert.KernelIdeal.Gen Cert.KernelIdeal.Fr Cert.KernelIdeal.Chain Cert.KernelIdeal.ChainSem
open Cert.KernelIdeal.Blocks Cert.KernelIdeal.PayMisc
open Idealize.ShloMosaic Idealize.ShloMosaic.TcCoe Idealize.ShloMosaic.ValueIdx
open Idealize.SL.Sem

variable (m : (ℓ : Loc nD τ sig) → Buf (Elt Ideal) ℓ)

def xs (c : Dev nD) : Fin 8 → Cert.Attn.Mat 2048 1024 := fun b t k =>
  (m ((c : Thread nD τ).loc main_arg0) : S8x2048x1024.Idx → EReal) (ix3 b t k)

def wk (c : Dev nD) : Cert.Attn.Mat 1024 64 := fun k h => (m ((c : Thread nD τ).loc main_arg1) : S1024x64.Idx → EReal) (ix2 k h)

def wq (c : Dev nD) : Cert.Attn.Mat 1024 64 := fun k h => (m ((c : Thread nD τ).loc main_arg2) : S1024x64.Idx → EReal) (ix2 k h)

def wv (c : Dev nD) : Cert.Attn.Mat 1024 64 := fun k h => (m ((c : Thread nD τ).loc main_arg3) : S1024x64.Idx → EReal) (ix2 k h)

/-- The specification at the result array's index. -/
def Garr (c : Dev nD) : S8x2048x64.Idx → EReal := fun i =>
  Cert.Attn.G (xs m c) (wk m c) (wq m c) (wv m c) (i 0) (i 1) (i 2)

abbrev batch (t : Fin cfg0.N) : Fin 8 := ⟨t.val / 8, by have := t.isLt; have : cfg0.N = 64 := N_0; omega⟩

abbrev xblk (c : Dev nD) (t : Fin cfg0.N) : Vec Ideal S1x2048x1024 .f32 := iblk m c 0 t

abbrev wblk (c : Dev nD) (t : Fin cfg0.N) : Vec Ideal S1024x192 .f32 := iblk m c 1 t

/-- Band 0 of the point's product is the batch's query projection; bands 1 and 2 the key and value projections. -/
theorem bandQ (c : Dev nD) (t : Fin cfg0.N) (s : Fin 2048) (h : Fin 64) :
    k0_pay69 (F := Ideal) (xblk m c t) (wblk m c t) (ix2 s h) = Cert.Attn.proj (xs m c (batch t)) (wq m c) s h := by
  refine (projQ (xblk m c t) (wblk m c t) s h).trans ?_
  unfold Cert.Attn.proj
  refine Finset.sum_congr rfl fun k _ => ?_
  have e1 : xblk m c t (ix3 (0 : Fin 1) s k) = xs m c (batch t) s k := xblk_apply m c t s k
  have e2 : wblk m c t (ix2 k (⟨h.val, by omega⟩ : Fin 192)) = wq m c k h := by
    refine (wblk_apply m c t k _).trans ?_
    rw [V_wcat m c, wcat_apply, dif_pos (show ((⟨h.val, by omega⟩ : Fin 192)).val < 64 from h.isLt)]
    rfl
  rw [e1, e2]

theorem bandK (c : Dev nD) (t : Fin cfg0.N) (s : Fin 2048) (h : Fin 64) :
    k0_pay70 (F := Ideal) (xblk m c t) (wblk m c t) (ix2 s h) = Cert.Attn.proj (xs m c (batch t)) (wk m c) s h := by
  refine (projK (xblk m c t) (wblk m c t) s h).trans ?_
  unfold Cert.Attn.proj
  refine Finset.sum_congr rfl fun k _ => ?_
  have e1 : xblk m c t (ix3 (0 : Fin 1) s k) = xs m c (batch t) s k := xblk_apply m c t s k
  have e2 : wblk m c t (ix2 k (⟨64 + h.val, by omega⟩ : Fin 192)) = wk m c k h := by
    refine (wblk_apply m c t k _).trans ?_
    rw [V_wcat m c, wcat_apply, dif_neg (show ¬ ((⟨64 + h.val, by omega⟩ : Fin 192)).val < 64 from by show ¬ 64 + h.val < 64; omega),
      dif_pos (show ((⟨64 + h.val, by omega⟩ : Fin 192)).val < 128 from by show 64 + h.val < 128; omega)]
    show (m ((c : Thread nD τ).loc main_arg1) : S1024x64.Idx → EReal) (ix2 k (⟨64 + h.val - 64, _⟩ : Fin 64)) = (m ((c : Thread nD τ).loc main_arg1) : S1024x64.Idx → EReal) (ix2 k h)
    congr 2
    apply Fin.ext
    show 64 + h.val - 64 = h.val
    omega
  rw [e1, e2]

theorem bandV (c : Dev nD) (t : Fin cfg0.N) (s : Fin 2048) (h : Fin 64) :
    k0_pay71 (F := Ideal) (xblk m c t) (wblk m c t) (ix2 s h) = Cert.Attn.proj (xs m c (batch t)) (wv m c) s h := by
  refine (projV (xblk m c t) (wblk m c t) s h).trans ?_
  unfold Cert.Attn.proj
  refine Finset.sum_congr rfl fun k _ => ?_
  have e1 : xblk m c t (ix3 (0 : Fin 1) s k) = xs m c (batch t) s k := xblk_apply m c t s k
  have e2 : wblk m c t (ix2 k (⟨128 + h.val, by omega⟩ : Fin 192)) = wv m c k h := by
    refine (wblk_apply m c t k _).trans ?_
    rw [V_wcat m c, wcat_apply, dif_neg (show ¬ ((⟨128 + h.val, by omega⟩ : Fin 192)).val < 64 from by show ¬ 128 + h.val < 64; omega),
      dif_neg (show ¬ ((⟨128 + h.val, by omega⟩ : Fin 192)).val < 128 from by show ¬ 128 + h.val < 128; omega)]
    show (m ((c : Thread nD τ).loc main_arg3) : S1024x64.Idx → EReal) (ix2 k (⟨128 + h.val - 128, _⟩ : Fin 64)) = (m ((c : Thread nD τ).loc main_arg3) : S1024x64.Idx → EReal) (ix2 k h)
    congr 2
    apply Fin.ext
    show 128 + h.val - 128 = h.val
    omega
  rw [e1, e2]

theorem scr_q0 (c : Dev nD) (t : Fin cfg0.N) (h : t.val % 8 = 0) :
    (outsAt0 m c t.val t.isLt).2 = (k0_pay69 (F := Ideal) (xblk m c t) (wblk m c t), k0_pay70 (F := Ideal) (xblk m c t) (wblk m c t), k0_pay71 (F := Ideal) (xblk m c t) (wblk m c t)) := by
  rw [outsAt0_q0 m c t h, caseQ0_eq]

theorem scr_keep (c : Dev nD) (t : Fin cfg0.N) (h : t.val % 8 ≠ 0) :
    (outsAt0 m c t.val t.isLt).2 = (outsAt0 m c (t.val - 1) (Nat.lt_of_le_of_lt (Nat.sub_le _ _) t.isLt)).2 := by
  rw [outsAt0_keep m c t h, caseKeep_eq]

/-- After any point the scratches hold the three projections of the point's batch. -/
theorem scratch_inv (c : Dev nD) (t : Fin cfg0.N) :
    mat2048 (outsAt0 m c t.val t.isLt).2.1 = Cert.Attn.proj (xs m c (batch t)) (wq m c)
    ∧ mat2048 (outsAt0 m c t.val t.isLt).2.2.1 = Cert.Attn.proj (xs m c (batch t)) (wk m c)
    ∧ mat2048 (outsAt0 m c t.val t.isLt).2.2.2 = Cert.Attn.proj (xs m c (batch t)) (wv m c) := by
  obtain ⟨n, hn⟩ := t
  induction n using Nat.strong_induction_on with
  | _ n ih =>
    by_cases h : n % 8 = 0
    · rw [scr_q0 m c ⟨n, hn⟩ h]
      exact ⟨funext fun s => funext fun j => bandQ m c ⟨n, hn⟩ s j, funext fun s => funext fun j => bandK m c ⟨n, hn⟩ s j,
        funext fun s => funext fun j => bandV m c ⟨n, hn⟩ s j⟩
    · rw [scr_keep m c ⟨n, hn⟩ h]
      have hb : batch ⟨n, hn⟩ = batch ⟨n - 1, Nat.lt_of_le_of_lt (Nat.sub_le _ _) hn⟩ := by
        apply Fin.ext
        show n / 8 = (n - 1) / 8
        omega
      rw [hb]
      exact ih (n - 1) (by omega) _

/-- The output block is the quotient after key tiles 0..qi, from the scratches the point leaves. -/
theorem out_eq (c : Dev nD) (t : Fin cfg0.N) :
    (outsAt0 m c t.val t.isLt).1
      = outOf (chain (F := Ideal) (grid0.coords t) (outsAt0 m c t.val t.isLt).2.1 (outsAt0 m c t.val t.isLt).2.2.1
          (outsAt0 m c t.val t.isLt).2.2.2 (t.val % 8 + 1)) := by
  by_cases h : t.val % 8 = 0
  · rw [outsAt0_q0 m c t h, caseQ0_eq, h]
  · rw [outsAt0_keep m c t h, caseKeep_eq]

theorem args_real [hPre : Cert.Pre_finite_inputs.Facts] (hpre : Cert.Pre_KernelIdeal m) (c : Dev nD) :
    (∀ b t k, ∃ r : ℝ, xs m c b t k = (r : EReal)) ∧ (∀ k h, ∃ r : ℝ, wk m c k h = (r : EReal))
      ∧ (∀ k h, ∃ r : ℝ, wq m c k h = (r : EReal)) ∧ (∀ k h, ∃ r : ℝ, wv m c k h = (r : EReal)) := by
  obtain ⟨hx, h1, h2, h3⟩ := Cert.Finite.real_of_pre m hpre c
  exact ⟨fun b t k => hx (ix3 b t k), fun k h => h1 (ix2 k h), fun k h => h2 (ix2 k h), fun k h => h3 (ix2 k h)⟩

/-- A projection of real matrices is real. -/
theorem proj_real (x : Cert.Attn.Mat 2048 1024) (w : Cert.Attn.Mat 1024 64)
    (hx : ∀ t k, ∃ r : ℝ, x t k = (r : EReal)) (hw : ∀ k h, ∃ r : ℝ, w k h = (r : EReal)) (t : Fin 2048) (h : Fin 64) :
    ∃ r : ℝ, Cert.Attn.proj x w t h = (r : EReal) := by
  choose X hX using hx
  choose W hW using hw
  refine ⟨∑ k : Fin 1024, X t k * W k h, ?_⟩
  unfold Cert.Attn.proj
  rw [Cert.Attn.coe_sum]
  exact Finset.sum_congr rfl fun k _ => by rw [hX, hW, EReal.coe_mul]

theorem coord1 : ∀ t : Fin cfg0.N, ((grid0.coords t) 1).val = t.val % 8 :=
  (by decide +kernel : ∀ t : Fin grid0.N, ((grid0.coords t) 1).val = t.val % 8)

/-- Entry (0, r, h) of point t's block is the specification at batch t / 8, row 256·(t mod 8) + r. -/
theorem point_value [hPre : Cert.Pre_finite_inputs.Facts] (hpre : Cert.Pre_KernelIdeal m) (c : Dev nD) (t : Fin cfg0.N)
    (r : Fin 256) (h : Fin 64) :
    ((outsAt0 m c t.val t.isLt).1 : S1x256x64.Idx → EReal) (ix3 (0 : Fin 1) r h)
      = Garr m c (ix3 (⟨t.val / 8, by have := t.isLt; have : cfg0.N = 64 := N_0; omega⟩ : Fin 8)
          (⟨256 * (t.val % 8) + r.val, by have := r.isLt; omega⟩ : Fin 2048) h) := by
  obtain ⟨hx, hwk, hwq, hwv⟩ := args_real m hpre c
  obtain ⟨eQ, eK, eV⟩ := scratch_inv m c t
  have hi : ((grid0.coords t) 1).val = (⟨t.val % 8, Nat.mod_lt _ (by decide)⟩ : Fin 8).val := coord1 t
  refine (congrFun (out_eq m c t) (ix3 (0 : Fin 1) r h)).trans ?_
  refine (out_chain (grid0.coords t) ⟨t.val % 8, Nat.mod_lt _ (by decide)⟩ hi _ _ _ r h).trans ?_
  rw [eQ, eK, eV]
  refine (Cert.Attn.flash_eq_attn _ _ _ (proj_real _ _ (hx _) hwq) (proj_real _ _ (hx _) hwk) (proj_real _ _ (hx _) hwv) _ r h).trans ?_
  unfold Garr Cert.Attn.G
  rfl

theorem kernel_value [hPre : Cert.Pre_finite_inputs.Facts] (hpre : Cert.Pre_KernelIdeal m) (c : Dev nD) :
    (dats m 0 c).arrAt 2 cfg0.N = Garr m c :=
  final_of_points m c (Garr m c) (point_value m hpre c)

/-- The program ends with the result array at the specification and the arguments as launched. -/
theorem kernel_run [hPre : Cert.Pre_finite_inputs.Facts] (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v1) = Garr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_value m ρ (Garr m) (kernel_value m hpre)

end Cert.KernelIdeal.Points

end
-- ==== Proof.RefSide.lean ====
/-
  The reference read one host operation at a time: three projections, masked scaled scores, row maximum, weights,
  row sums, normalised weights, product with the values. At every index that is `Cert.Attn.G`.
-/
import proofs.«431441_j5385888989914_3_alg».proof.Defs
import proofs.«431441_j5385888989914_3_alg».proof.Proof.Gen.ReferenceIdeal.Run
import proofs.«431441_j5385888989914_3_alg».proof.Proof.Gen.ReferenceIdeal.Read
import proofs.«431441_j5385888989914_3_alg».proof.Proof.Spec
import Idealize.ShloMosaic.Lib.ValueIdx
import Idealize.ShloMosaic.Lib.StableHlo.Predicate
import Idealize.ShloMosaic.PureOps.Ideal.Laws
import Idealize.ShloMosaic.PureOps.Reduce

noncomputable section

namespace Cert.ReferenceIdeal.RefSide

open Cert.ReferenceIdeal Cert.ReferenceIdeal.Gen Idealize.ShloMosaic Idealize.ShloMosaic.TcCoe Idealize.SL.Sem Idealize.ShloMosaic.StableHlo
open Idealize.ShloMosaic.ValueIdx

def xMat (x : FVec Ideal S8x2048x1024 .f32) : Fin 8 → Cert.Attn.Mat 2048 1024 := fun b t c => x (ix3 b t c)

def wMat (w : FVec Ideal S1024x64 .f32) : Cert.Attn.Mat 1024 64 := fun c h => w (ix2 c h)

theorem ofBits_negInf : Ideal.ofBits .f32 0xFF800000#32 = (⊥ : EReal) := by simp [Ideal.ofBits, Ideal.ieee]

/-- For row numbers below 2048 the signed word compare is the numeric one. -/
theorem sge_rows (t s : Fin 2048) :
    IntOp.cmpi .sge (IntOp.addi (BitVec.ofNat 32 t.val) 0#32) (BitVec.ofNat 32 s.val) = if s ≤ t then 1#1 else 0#1 := by
  have ht : (BitVec.ofNat 32 t.val).toNat = t.val := by rw [BitVec.toNat_ofNat]; have := t.isLt; omega
  have hs : (BitVec.ofNat 32 s.val).toNat = s.val := by rw [BitVec.toNat_ofNat]; have := s.isLt; omega
  have h0 : IntOp.addi (BitVec.ofNat 32 t.val) 0#32 = BitVec.ofNat 32 t.val := BitVec.add_zero _
  have hiff := Predicate.sge_iff_toNat (a := BitVec.ofNat 32 t.val) (b := BitVec.ofNat 32 s.val)
    (by rw [ht]; have := t.isLt; omega) (by rw [hs]; have := s.isLt; omega)
  rw [ht, hs] at hiff
  by_cases hst : s ≤ t
  · rw [h0, if_pos hst]; exact hiff.mpr hst
  · rw [h0, if_neg hst]; exact eq_zero_of_ne_one fun h1 => hst (Fin.le_def.mpr (hiff.mp h1))

variable (x : FVec Ideal S8x2048x1024 .f32) (wk wq wv : FVec Ideal S1024x64 .f32)

theorem keys_apply (b : Fin 8) (s : Fin 2048) (h : Fin 64) :
    Read.val_main_v0 (F := Ideal) x wk (ix3 b s h) = Cert.Attn.proj (xMat x b) (wMat wk) s h := by
  rw [Read.val_main_v0_apply]
  refine Finset.sum_congr rfl fun c _ => ?_
  exact congrArg₂ (· * ·)
    (congrArg x (funext fun a => by match a with | ⟨0, _⟩ => rfl | ⟨1, _⟩ => rfl | ⟨2, _⟩ => rfl))
    (congrArg wk (funext fun a => by match a with | ⟨0, _⟩ => rfl | ⟨1, _⟩ => rfl))

theorem queries_apply (b : Fin 8) (t : Fin 2048) (h : Fin 64) :
    Read.val_main_v1 (F := Ideal) x wq (ix3 b t h) = Cert.Attn.proj (xMat x b) (wMat wq) t h := by
  rw [Read.val_main_v1_apply]
  refine Finset.sum_congr rfl fun c _ => ?_
  exact congrArg₂ (· * ·)
    (congrArg x (funext fun a => by match a with | ⟨0, _⟩ => rfl | ⟨1, _⟩ => rfl | ⟨2, _⟩ => rfl))
    (congrArg wq (funext fun a => by match a with | ⟨0, _⟩ => rfl | ⟨1, _⟩ => rfl))

theorem values_apply (b : Fin 8) (s : Fin 2048) (h : Fin 64) :
    Read.val_main_v2 (F := Ideal) x wv (ix3 b s h) = Cert.Attn.proj (xMat x b) (wMat wv) s h := by
  rw [Read.val_main_v2_apply]
  refine Finset.sum_congr rfl fun c _ => ?_
  exact congrArg₂ (· * ·)
    (congrArg x (funext fun a => by match a with | ⟨0, _⟩ => rfl | ⟨1, _⟩ => rfl | ⟨2, _⟩ => rfl))
    (congrArg wv (funext fun a => by match a with | ⟨0, _⟩ => rfl | ⟨1, _⟩ => rfl))

/-- The mask at (t, s) is set iff s ≤ t. -/
theorem tril_apply (t s : Fin 2048) :
    Read.val_main_v7 (F := Ideal) (ix2 t s) = if s ≤ t then 1#1 else 0#1 := by
  rw [Read.val_main_v7_apply, Read.val_main_call0_v4_apply, Read.val_main_call0_v2_apply, Read.val_main_call0_v0_apply,
    Read.val_main_call0_v1_apply, Read.val_main_call0_c_apply, Read.val_main_call0_v3_apply, Read.val_main_v6_apply,
    Read.val_main_c_apply, Read.val_main_call0_v5_apply, Read.val_main_call0_c_0_apply]
  show Scalar.select (IntOp.cmpi .sge (IntOp.addi (BitVec.ofNat 32 t.val) 0#32) (BitVec.ofNat 32 s.val)) 1#1 0#1 = _
  rw [sge_rows]
  by_cases hst : s ≤ t
  · rw [if_pos hst, select_one]
  · rw [if_neg hst, select_zero]

/-- The masked scaled score at (b, t, s). -/
theorem score_apply (b : Fin 8) (t s : Fin 2048) :
    Read.val_main_v8 (F := Ideal) x wk wq (ix3 b t s)
      = Cert.Attn.score (Cert.Attn.proj (xMat x b) (wMat wq)) (Cert.Attn.proj (xMat x b) (wMat wk)) t s := by
  rw [Read.val_main_v8_apply, Read.val_main_call1_v1_apply,
    show Read.idx_main_call1_v1 (ix3 b t s) = ix2 t s from
      funext fun a => by match a with | ⟨0, _⟩ => rfl | ⟨1, _⟩ => rfl,
    tril_apply]
  unfold Cert.Attn.score
  by_cases hst : s ≤ t
  · rw [if_pos hst, if_pos hst, select_one, Read.val_main_v5_apply, Read.val_main_v3_apply, Read.val_main_v4_apply,
      Read.val_main_cst_apply]
    show (∑ k : Fin 64, _) * Ideal.ofBits .f32 0x3D000000#32 = _
    unfold Cert.Attn.scale
    refine congrArg (· * Ideal.ofBits .f32 0x3D000000#32) (Finset.sum_congr rfl fun k _ => ?_)
    have el : Read.lidx_main_v3 (ix3 b t s) k = ix3 b t k :=
      funext fun a => by match a with | ⟨0, _⟩ => rfl | ⟨1, _⟩ => rfl | ⟨2, _⟩ => rfl
    have er : Read.ridx_main_v3 (ix3 b t s) k = ix3 b s k :=
      funext fun a => by match a with | ⟨0, _⟩ => rfl | ⟨1, _⟩ => rfl | ⟨2, _⟩ => rfl
    rw [el, er, queries_apply, keys_apply]
  · rw [if_neg hst, if_neg hst, select_zero, Read.val_main_call1_v2_apply, Read.val_main_call1_v0_apply,
      Read.val_main_cst_0_apply]
    exact ofBits_negInf

/-- A maximum-reduce over the last axis from −∞ is the row's supremum. -/
theorem rowSup (y : FVec Ideal S8x2048x2048 .f32) (init : FVec Ideal S_ .f32)
    (hinit : init (Shape.Idx.first h_S_) = (⊥ : EReal)) (b : Fin 8) (t : Fin 2048) :
    Host.reduce FloatOps.maximumf y init reducesTo_S8x2048x2048_S8x2048_d2 h_S_ (ix2 b t)
      = Finset.univ.sup fun s : Fin 2048 => y (ix3 b t s) := by
  have hred : S8x2048x2048.Reduces [2] S8x2048 := by decide
  rw [Host.reduce_eq_fold_single FloatOps.maximumf y init reducesTo_S8x2048x2048_S8x2048_d2 hred h_S_, hinit]
  have hf : (y ∘ hred.lift (ix2 b t)) = fun s : Fin 2048 => y (ix3 b t s) :=
    funext fun s => congrArg y (funext fun a => Fin.ext (by
      match a with | ⟨0, _⟩ => rfl | ⟨1, _⟩ => rfl | ⟨2, _⟩ => rfl))
  rw [hf]
  rfl

theorem rowMax_apply (b : Fin 8) (t : Fin 2048) :
    Read.val_main_v11 (F := Ideal) x wk wq (ix2 b t)
      = Cert.Attn.rowMax (Cert.Attn.proj (xMat x b) (wMat wq)) (Cert.Attn.proj (xMat x b) (wMat wk)) t := by
  rw [Read.val_main_v11_apply, Read.val_main_v10_apply, Read.val_main_cst_2_apply]
  refine (congrArg (max (Ideal.ofBits .f32 0xFF800000#32))
    (rowSup (Read.val_main_v8 (F := Ideal) x wk wq) (Read.val_main_cst_1 (F := Ideal)) ofBits_negInf b t)).trans ?_
  rw [ofBits_negInf]
  refine (max_eq_right bot_le).trans ?_
  unfold Cert.Attn.rowMax
  exact congrArg Finset.univ.sup (funext fun s => score_apply x wk wq b t s)

theorem weight_apply (b : Fin 8) (t s : Fin 2048) :
    Read.val_main_v15 (F := Ideal) x wk wq (ix3 b t s)
      = Cert.Attn.weight (Cert.Attn.proj (xMat x b) (wMat wq)) (Cert.Attn.proj (xMat x b) (wMat wk)) t s := by
  rw [Read.val_main_v15_apply, Read.val_main_v14_apply, Read.val_main_v13_apply, Read.val_main_v12_apply, score_apply,
    show Read.idx_main_v12 (Read.idx_main_v13 (ix3 b t s)) = ix2 b t from
      funext fun a => by match a with | ⟨0, _⟩ => rfl | ⟨1, _⟩ => rfl,
    rowMax_apply]
  rfl

theorem rowSum_apply (b : Fin 8) (t : Fin 2048) :
    Read.val_main_v16 (F := Ideal) x wk wq (ix2 b t)
      = ∑ s : Fin 2048, Cert.Attn.weight (Cert.Attn.proj (xMat x b) (wMat wq)) (Cert.Attn.proj (xMat x b) (wMat wk)) t s := by
  rw [Read.val_main_v16_apply, Read.val_main_cst_3_apply]
  show Ideal.ofBits .f32 0x00000000#32 + _ = _
  rw [Ideal.ofBits_zero_f32, zero_add]
  refine Finset.sum_congr rfl fun s _ => ?_
  rw [show Read.idx_main_v16 (ix2 b t) s = ix3 b t s from
      funext fun a => by match a with | ⟨0, _⟩ => rfl | ⟨1, _⟩ => rfl | ⟨2, _⟩ => rfl,
    weight_apply]

theorem softmax_apply (b : Fin 8) (t s : Fin 2048) :
    Read.val_main_v19 (F := Ideal) x wk wq (ix3 b t s)
      = Ideal.div (Cert.Attn.weight (Cert.Attn.proj (xMat x b) (wMat wq)) (Cert.Attn.proj (xMat x b) (wMat wk)) t s)
          (∑ s' : Fin 2048, Cert.Attn.weight (Cert.Attn.proj (xMat x b) (wMat wq)) (Cert.Attn.proj (xMat x b) (wMat wk)) t s') := by
  rw [Read.val_main_v19_apply, Read.val_main_v18_apply, Read.val_main_v17_apply, weight_apply,
    show Read.idx_main_v17 (Read.idx_main_v18 (ix3 b t s)) = ix2 b t from
      funext fun a => by match a with | ⟨0, _⟩ => rfl | ⟨1, _⟩ => rfl,
    rowSum_apply]
  rfl

theorem result_apply (b : Fin 8) (t : Fin 2048) (h : Fin 64) :
    Read.val_main_v20 (F := Ideal) x wk wq wv (ix3 b t h)
      = Cert.Attn.G (xMat x) (wMat wk) (wMat wq) (wMat wv) b t h := by
  rw [Read.val_main_v20_apply]
  unfold Cert.Attn.G Cert.Attn.attn
  refine Finset.sum_congr rfl fun s _ => ?_
  rw [show Read.lidx_main_v20 (ix3 b t h) s = ix3 b t s from
      funext fun a => by match a with | ⟨0, _⟩ => rfl | ⟨1, _⟩ => rfl | ⟨2, _⟩ => rfl,
    show Read.ridx_main_v20 (ix3 b t h) s = ix3 b s h from
      funext fun a => by match a with | ⟨0, _⟩ => rfl | ⟨1, _⟩ => rfl | ⟨2, _⟩ => rfl,
    softmax_apply, values_apply]

/-- The reference's result is the specification at every index. -/
theorem ref_eq :
    Read.val_main_v20 (F := Ideal) x wk wq wv
      = fun i : S8x2048x64.Idx => Cert.Attn.G (xMat x) (wMat wk) (wMat wq) (wMat wv) (i 0) (i 1) (i 2) := by
  funext i
  obtain ⟨b, t, h, rfl⟩ : ∃ (b : Fin 8) (t : Fin 2048) (h : Fin 64), i = ix3 b t h := ⟨i 0, i 1, i 2, eq_ix3 i⟩
  exact result_apply x wk wq wv b t h

/-- The reference's run with its result named by the specification. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
        = (fun i : S8x2048x64.Idx => Cert.Attn.G (xMat (m ((c.tc : Thread nD τ).loc main_arg0)))
            (wMat (m ((c.tc : Thread nD τ).loc main_arg1))) (wMat (m ((c.tc : Thread nD τ).loc main_arg2)))
            (wMat (m ((c.tc : Thread nD τ).loc main_arg3))) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((Read.val_main_v20_eq m c).trans (ref_eq _ _ _ _)), (h c).2⟩)
    (Cert.ReferenceIdeal.Value.run (F := Ideal) m ρ)

end Cert.ReferenceIdeal.RefSide

end
-- ==== Proof.lean ====
/-
  Fused causal attention. Per batch the kernel projects the slab once, at the batch's first grid point, and per 256-row
  query tile walks the key tiles up to the diagonal with a running maximum, sum and accumulator; the reference forms
  all scores, masks above the diagonal with −∞ and applies softmax. On the extended reals, with the kernel's finite
  stand-in for −∞ named −∞ and every input real, both are `Cert.Attn.G` of the four arguments.
-/
import proofs.«431441_j5385888989914_3_alg».proof.Defs
import proofs.«431441_j5385888989914_3_alg».proof.Proof.Gen.Kernel
import proofs.«431441_j5385888989914_3_alg».proof.Proof.Gen.KernelIdeal
import proofs.«431441_j5385888989914_3_alg».proof.Proof.Gen.ReferenceIdeal
import proofs.«431441_j5385888989914_3_alg».proof.Proof.Gen.Pre_finite_inputs
import proofs.«431441_j5385888989914_3_alg».proof.Proof.KB.Frame
import proofs.«431441_j5385888989914_3_alg».proof.Proof.KI.Points
import proofs.«431441_j5385888989914_3_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass's one rewrite, at each of its nine sites: the finite stand-in is −∞. -/
theorem neg_big : IdealRules.named_const.Statement Cert.KernelIdeal.κ "neg_big" .f32 0xFF333332#32 ⊥ :=
  IdealRules.named_const.statement Cert.KernelIdeal.κ "neg_big" .f32 0xFF333332#32 ⊥ rfl

theorem preserves : Cert.preserves_Kernel_KernelIdeal :=
  ⟨neg_big, neg_big, neg_big, neg_big, neg_big, neg_big, neg_big, neg_big, neg_big⟩

/-- From memories agreeing on the arguments both programs end at the specification. -/
theorem algebraic : Cert.algebraic_KernelIdeal_ReferenceIdeal := by
  intro m ρ m' ρ' hpre hagree
  refine ⟨fun c => Cert.KernelIdeal.Points.Garr m c, Cert.KernelIdeal.Points.kernel_run m ρ hpre, ?_⟩
  refine (θ_run Cert.ReferenceIdeal.defs _ _).mono (fun _ h c => ⟨(h c).1.trans ?_, (h c).2⟩)
    (Cert.ReferenceIdeal.RefSide.ref_run m' ρ')
  rw [(hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
